-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x5 : Shape := ⟨2, ![32, 5]⟩
abbrev S5 : Shape := ⟨1, ![5]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x5 .f32) (main_arg12 : FVec F S5 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x5 .f32 := Host.absf main_arg11
  let main_cst_16 : FVec F S_ .f32 := constant S_ .f32 0x7F800000#32
  let main_v45 : FVec F S32x5 .f32 := broadcastInDim S32x5 ![] bcast_S_S32x5 main_cst_16
  let main_v46 : IVec S32x5 1 := cmpf .olt main_v44 main_v45
  let main_c_17 : IVec S_ 1 := constantI S_ 1 1#1
  let main_v47 : IVec S_ 1 := (fun x v => Host.reduce IntOp.andi x v reducesTo_S32x5_S_d0_1 h_S_) main_v46 main_c_17
  let main_v48 : IVec S_ 1 := andi main_v43 main_v47
  let main_v49 : FVec F S5 .f32 := Host.absf main_arg12
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x5 .f32) (main_arg12 : FVec F S5 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : IVec S2x3200000 32) (main_arg2 : IVec S100000 32) (main_arg3 : FVec F S3x32 .f32) (main_arg4 : FVec F S32 .f32) (main_arg5 : FVec F S32x64 .f32) (main_arg6 : FVec F S64 .f32) (main_arg7 : FVec F S64x64 .f32) (main_arg8 : FVec F S64 .f32) (main_arg9 : FVec F S64x32 .f32) (main_arg10 : FVec F S32 .f32) (main_arg11 : FVec F S32x5 .f32) (main_arg12 : FVec F S5 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x5 : Shape := ⟨2, ![32, 5]⟩
abbrev S5 : Shape := ⟨1, ![5]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x3 : Shape := ⟨2, ![10000, 3]⟩
abbrev S10000x32 : Shape := ⟨2, ![10000, 32]⟩
abbrev S3300000x32 : Shape := ⟨2, ![3300000, 32]⟩
abbrev S1x32 : Shape := ⟨2, ![1, 32]⟩
abbrev S100000x64 : Shape := ⟨2, ![100000, 64]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S512x64 : Shape := ⟨2, ![512, 64]⟩
abbrev S5000x1 : Shape := ⟨2, ![5000, 1]⟩
abbrev S5000x64 : Shape := ⟨2, ![5000, 64]⟩
abbrev S5000x512 : Shape := ⟨2, ![5000, 512]⟩
abbrev S1x5 : Shape := ⟨2, ![1, 5]⟩
abbrev S512x5 : Shape := ⟨2, ![512, 5]⟩
abbrev S512x32 : Shape := ⟨2, ![512, 32]⟩

abbrev nBuf : Space → Nat
  | .hbm => 115
  | .vmem => 42
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x5, .f32⟩
  | .hbm, ⟨12, _⟩ => ⟨S5, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S100000, .i32⟩
  | .hbm, ⟨18, _⟩ => ⟨S3300000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x32, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x32, .f32⟩
  | .hbm, ⟨63, _⟩ => ⟨S3300000x1, .f32⟩
  | .hbm, ⟨64, _⟩ => ⟨S3300000x32, .f32⟩
  | .hbm, ⟨65, _⟩ => ⟨S3300000x32, .f32⟩
  | .hbm, ⟨66, _⟩ => ⟨S_, .f32⟩
  | .hbm, ⟨67, _⟩ => ⟨S100000x32, .f32⟩
  | .hbm, ⟨68, _⟩ => ⟨S3300000x1, .i32⟩
  | .hbm, ⟨69, _⟩ => ⟨S100000x32, .f32⟩
  | .hbm, ⟨70, _⟩ => ⟨S1x32, .f32⟩
  | .hbm, ⟨71, _⟩ => ⟨S100000x32, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x64, .f32⟩
  | .hbm, ⟨101, _⟩ => ⟨S3300000x1, .f32⟩
  | .hbm, ⟨102, _⟩ => ⟨S3300000x64, .f32⟩
  | .hbm, ⟨103, _⟩ => ⟨S3300000x64, .f32⟩
  | .hbm, ⟨104, _⟩ => ⟨S_, .f32⟩
  | .hbm, ⟨105, _⟩ => ⟨S100000x64, .f32⟩
  | .hbm, ⟨106, _⟩ => ⟨S3300000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x1, .i32⟩
  | .hbm, ⟨111, _⟩ => ⟨S512x64, .f32⟩
  | .hbm, ⟨112, _⟩ => ⟨S1x32, .f32⟩
  | .hbm, ⟨113, _⟩ => ⟨S1x5, .f32⟩
  | .hbm, ⟨114, _⟩ => ⟨S512x5, .f32⟩
  | .local _ .vmem, ⟨0, _⟩ => ⟨S10000x3, .f32⟩
  | .local _ .vmem, ⟨1, _⟩ => ⟨S10000x3, .f32⟩
  | .local _ .vmem, ⟨2, _⟩ => ⟨S3x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S5000x1, .i32⟩
  | .local _ .vmem, ⟨31, _⟩ => ⟨S5000x1, .i32⟩
  | .local _ .vmem, ⟨32, _⟩ => ⟨S5000x64, .f32⟩
  | .local _ .vmem, ⟨33, _⟩ => ⟨S5000x64, .f32⟩
  | .local _ .vmem, ⟨34, _⟩ => ⟨S512x64, .f32⟩
  | .local _ .vmem, ⟨35, _⟩ => ⟨S512x64, .f32⟩
  | .local _ .vmem, ⟨36, _⟩ => ⟨S512x64, .f32⟩
  | .local _ .vmem, ⟨37, _⟩ => ⟨S64x32, .f32⟩
  | .local _ .vmem, ⟨38, _⟩ => ⟨S1x32, .f32⟩
  | .local _ .vmem, ⟨39, _⟩ => ⟨S32x5, .f32⟩
  | .local _ .vmem, ⟨40, _⟩ => ⟨S1x5, .f32⟩
  | .local _ .vmem, ⟨41, _⟩ => ⟨S512x5, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_scratch0 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc7_stg4_0 : Ref sig .tc := ⟨.vmem, 40, rfl⟩
abbrev cc7_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem1_0 : DmaSem sig := 36
abbrev cc7_sem2_0 : DmaSem sig := 37
abbrev cc7_sem3_0 : DmaSem sig := 38
abbrev cc7_sem4_0 : DmaSem sig := 39
abbrev cc7_sem5_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x5 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x5 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x5 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S5_S1x5 : S5.ShapeCasts S1x5
  inb_S64x32_S64x32_0_0 : ∀ a, (![0, 0] : Fin 2 → Nat) a + S64x32.size a ≤ S64x32.size a
  h_S64x32 : 0 < S64x32.numel
  broadcasts_S1x32_S512x32 : S1x32.Broadcasts S512x32
  inb_S32x5_S32x5_0_0 : ∀ a, (![0, 0] : Fin 2 → Nat) a + S32x5.size a ≤ S32x5.size a
  h_S32x5 : 0 < S32x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S512x5 : S1x5.Broadcasts S512x5
  reduces_S512x5_S5 : S512x5.Reduces [0] S5
  inb_S512x5_S512x5_0_0 : ∀ a, (![0, 0] : Fin 2 → Nat) a + S512x5.size a ≤ S512x5.size a
  h_S512x5 : 0 < S512x5.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x3_S3x32_S10000x32_1_0_0_1_n_n_wf : DotDims.WF S10000x3 S3x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x64_S10000x64_1_0_0_1_n_n_wf : DotDims.WF S10000x32 S32x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S5000x512_S5000x64_S512x64_0_0_1_1_n_n_wf : DotDims.WF S5000x512 S5000x64 S512x64 [0] [0] [1] [1] [] []
  dot_S512x64_S64x32_S512x32_1_0_0_1_n_n_wf : DotDims.WF S512x64 S64x32 S512x32 [1] [0] [0] [1] [] []
  dot_S512x32_S32x5_S512x5_1_0_0_1_n_n_wf : DotDims.WF S512x32 S32x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S100000x1.size a
  hwx6_0 : ∀ i : grid6.Coords, EltTy.bits .i32 = 32 ∨ (Rect.block (s := S100000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x64.size a ≤ S512x64.size a
  hwx6_2 : ∀ i : grid6.Coords, EltTy.bits .f32 = 32 ∨ (Rect.block (s := S512x64) S512x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x64.size a ≤ S512x64.size a
  hwx7_0 : ∀ i : grid7.Coords, EltTy.bits .f32 = 32 ∨ (Rect.block (s := S512x64) S512x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x5.size a ≤ S32x5.size a
  hwx7_3 : ∀ i : grid7.Coords, EltTy.bits .f32 = 32 ∨ (Rect.block (s := S32x5) S32x5.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x5.size a ≤ S1x5.size a
  hwx7_4 : ∀ i : grid7.Coords, EltTy.bits .f32 = 32 ∨ (Rect.block (s := S1x5) S1x5.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x5.size a ≤ S512x5.size a
  hwx7_5 : ∀ i : grid7.Coords, EltTy.bits .f32 = 32 ∨ (Rect.block (s := S512x5) S512x5.size (cc7_transform_5 i) (hinb7_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x3_S3x32_S10000x32_1_0_0_1_n_n : DotDims S10000x3 S3x32 S10000x32 where
  lhsContracting := [1]
  rhsContracting := [0]
  lhsNonContracting := [0]
  rhsNonContracting := [1]
  lhsBatch := []
  rhsBatch := []
  wf := dot_S10000x3_S3x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x5_S512x5_1_0_0_1_n_n : DotDims S512x32 S32x5 S512x5 where
  lhsContracting := [1]
  rhsContracting := [0]
  lhsNonContracting := [0]
  rhsNonContracting := [1]
  lhsBatch := []
  rhsBatch := []
  wf := dot_S512x32_S32x5_S512x5_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v79) S512x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v79) S512x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S32x5.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v81) S1x5.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v82) S512x5.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x5 : Shape := ⟨2, ![32, 5]⟩
abbrev S5 : Shape := ⟨1, ![5]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x64 : Shape := ⟨2, ![100000, 64]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512x32 : Shape := ⟨2, ![512, 32]⟩
abbrev S512x5 : Shape := ⟨2, ![512, 5]⟩
abbrev S1x5 : Shape := ⟨2, ![1, 5]⟩

abbrev nBuf : Space → Nat
  | .hbm => 221
  | .vmem => 0
  | .smem => 0
  | _ => 0

abbrev hbmTy0_0 (i : Nat) : BufTy := match i % 128 with
  | 0 => ⟨S100000x3, .f32⟩
  | 1 => ⟨S2x3200000, .i32⟩
  | 2 => ⟨S100000, .i32⟩
  | 3 => ⟨S3x32, .f32⟩
  | 4 => ⟨S32, .f32⟩
  | 5 => ⟨S32x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x5, .f32⟩
  | 12 => ⟨S5, .f32⟩
  | 13 => ⟨S1x3200000, .i32⟩
  | 14 => ⟨S3200000, .i32⟩
  | 15 => ⟨S1x3200000, .i32⟩
  | 16 => ⟨S3200000, .i32⟩
  | 17 => ⟨S100000, .i32⟩
  | 18 => ⟨S3300000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x32, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x32, .f32⟩
  | 63 => ⟨S3300000x1, .f32⟩
  | 64 => ⟨S3300000x32, .f32⟩
  | 65 => ⟨S3300000x32, .f32⟩
  | 66 => ⟨S_, .f32⟩
  | 67 => ⟨S100000x32, .f32⟩
  | 68 => ⟨S3300000x1, .i32⟩
  | 69 => ⟨S100000x32, .f32⟩
  | 70 => ⟨S1x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000, .i32⟩
  | 77 => ⟨S3300000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S3300000, .f32⟩
  | 112 => ⟨S100000x64, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x64, .f32⟩
  | 122 => ⟨S3300000x1, .f32⟩
  | 123 => ⟨S3300000x64, .f32⟩
  | 124 => ⟨S3300000x64, .f32⟩
  | 125 => ⟨S_, .f32⟩
  | 126 => ⟨S100000x64, .f32⟩
  | 127 => ⟨S3300000x1, .i32⟩
  | _ => ⟨S100000x3, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000, .i32⟩
  | 8 => ⟨S3300000, .i32⟩
  | 9 => ⟨S3300000, .i32⟩
  | 10 => ⟨S_, .f32⟩
  | 11 => ⟨S3300000, .f32⟩
  | 12 => ⟨S_, .f32⟩
  | 13 => ⟨S100000, .f32⟩
  | 14 => ⟨S3300000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S100000x64, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000x64, .f32⟩
  | 53 => ⟨S3300000x1, .f32⟩
  | 54 => ⟨S3300000x64, .f32⟩
  | 55 => ⟨S3300000x64, .f32⟩
  | 56 => ⟨S_, .f32⟩
  | 57 => ⟨S100000x64, .f32⟩
  | 58 => ⟨S3300000x1, .i32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S512x64, .f32⟩
  | 65 => ⟨S100000x1, .i32⟩
  | 66 => ⟨S512x64, .f32⟩
  | 67 => ⟨S512x32, .f32⟩
  | 68 => ⟨S1x32, .f32⟩
  | 69 => ⟨S512x32, .f32⟩
  | 70 => ⟨S512x32, .f32⟩
  | 71 => ⟨S_, .f32⟩
  | 72 => ⟨S512x32, .f32⟩
  | 73 => ⟨S512x32, .f32⟩
  | 74 => ⟨S512x5, .f32⟩
  | 75 => ⟨S1x5, .f32⟩
  | 76 => ⟨S512x5, .f32⟩
  | 77 => ⟨S512x5, .f32⟩
  | 78 => ⟨S_, .f32⟩
  | 79 => ⟨S5, .f32⟩
  | 80 => ⟨S_, .f32⟩
  | 81 => ⟨S5, .f32⟩
  | 82 => ⟨S5, .f32⟩
  | 83 => ⟨S1x5, .f32⟩
  | 84 => ⟨S512x5, .f32⟩
  | 85 => ⟨S512x5, .f32⟩
  | 86 => ⟨S512x5, .f32⟩
  | 87 => ⟨S_, .f32⟩
  | 88 => ⟨S5, .f32⟩
  | 89 => ⟨S1x5, .f32⟩
  | 90 => ⟨S1x5, .f32⟩
  | 91 => ⟨S512x5, .f32⟩
  | 92 => ⟨S512x5, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_15 : Ref sig .tc := ⟨.hbm, 102, rfl⟩
abbrev main_v66 : Ref sig .tc := ⟨.hbm, 103, rfl⟩
abbrev main_v67 : Ref sig .tc := ⟨.hbm, 104, rfl⟩
abbrev main_c_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_call4_v0 : Ref sig .tc := ⟨.hbm, 149, rfl⟩
abbrev main_call4_v1 : Ref sig .tc := ⟨.hbm, 150, rfl⟩
abbrev main_v102 : Ref sig .tc := ⟨.hbm, 151, rfl⟩
abbrev main_c_24 : Ref sig .tc := ⟨.hbm, 152, rfl⟩
abbrev main_v103 : Ref sig .tc := ⟨.hbm, 153, rfl⟩
abbrev main_v104 : Ref sig .tc := ⟨.hbm, 154, rfl⟩
abbrev main_c_25 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_c_26 : Ref sig .tc := ⟨.hbm, 161, rfl⟩
abbrev main_v110 : Ref sig .tc := ⟨.hbm, 162, rfl⟩
abbrev main_v111 : Ref sig .tc := ⟨.hbm, 163, rfl⟩
abbrev main_c_27 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_31 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_call5_cst : Ref sig .tc := ⟨.hbm, 199, rfl⟩
abbrev main_call5_v0 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_call6_cst : Ref sig .tc := ⟨.hbm, 206, rfl⟩
abbrev main_call6_v0 : Ref sig .tc := ⟨.hbm, 207, rfl⟩
abbrev main_call6_cst_0 : Ref sig .tc := ⟨.hbm, 208, rfl⟩
abbrev main_call6_v1 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_v6 : Ref sig .tc := ⟨.hbm, 214, rfl⟩
abbrev main_call6_cst_1 : Ref sig .tc := ⟨.hbm, 215, rfl⟩
abbrev main_call6_v7 : Ref sig .tc := ⟨.hbm, 216, rfl⟩
abbrev main_call6_v8 : Ref sig .tc := ⟨.hbm, 217, rfl⟩
abbrev main_call6_v9 : Ref sig .tc := ⟨.hbm, 218, rfl⟩
abbrev main_call6_v10 : Ref sig .tc := ⟨.hbm, 219, rfl⟩
abbrev main_v147 : Ref sig .tc := ⟨.hbm, 220, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S5_S1x5_1 : S5.BroadcastsInDim S1x5 (![1] : Fin 1 → Fin S1x5.rank)
  bcast_S1x5_S512x5_0_1 : S1x5.BroadcastsInDim S512x5 (![0, 1] : Fin 2 → Fin S512x5.rank)
  reducesTo_S512x5_S5_d0 : S512x5.ReducesTo [0] S5
  h_S_ : 0 < S_.numel
  bcast_S_S5 : S_.BroadcastsInDim S5 (![] : Fin 0 → Fin S5.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x32_S100000x32_1_0_0_1_n_n_wf : DotDims.WF S100000x3 S3x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x64_S64x32_S512x32_1_0_0_1_n_n_wf : DotDims.WF S512x64 S64x32 S512x32 [1] [0] [0] [1] [] []
  dot_S512x32_S32x5_S512x5_1_0_0_1_n_n_wf : DotDims.WF S512x32 S32x5 S512x5 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x5_S512x5_1_0_0_1_n_n : DotDims S512x32 S32x5 S512x5 where
  lhsContracting := [1]
  rhsContracting := [0]
  lhsNonContracting := [0]
  rhsNonContracting := [1]
  lhsBatch := []
  rhsBatch := []
  wf := dot_S512x32_S32x5_S512x5_1_0_0_1_n_n_wf

class Facts : Prop extends Facts₀ where

variable [Facts]
-- ==== Proof.Half0.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x3 := Rect.unit (s := S10000x3) ![0, 0] S10000x3.size inb_S10000x3_S10000x3_0_0
abbrev r0_1 : Rect S3x32 := Rect.unit (s := S3x32) ![0, 0] S3x32.size inb_S3x32_S3x32_0_0
abbrev r0_2 : Rect S10000x32 := Rect.unit (s := S10000x32) ![0, 0] S10000x32.size inb_S10000x32_S10000x32_0_0

def out0_2 (x0 : Vec F S10000x3 .f32) (x1 : Vec F S3x32 .f32) : Vec F S10000x32 .f32 :=
  View.canon [⟨r0_2, k0_pay1 (View.ld x0 r0_0) (View.ld x1 r0_1)⟩]

theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

-- the body overwrites the whole output block with the product of the two input blocks
set_option maxHeartbeats 1000000 in
theorem sound_kernel0 (c : Dev nD) (E : Set ℕ) (i : grid0.Coords) (arg1 : Memref sig .tc .vmem S10000x3 .f32) (harg1 : arg1.IsWhole) (arg2 : Memref sig .tc .vmem S3x32 .f32) (harg2 : arg2.IsWhole) (arg3 : Memref sig .tc .vmem S10000x32 .f32) (harg3 : arg3.IsWhole)
    (x0 : Vec F S10000x3 .f32) (x1 : Vec F S3x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.Half1.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0

def out1_2 (x0 : Vec F S10000x32 .f32) (x1 : Vec F S1x32 .f32) : Vec F S10000x32 .f32 :=
  View.canon [⟨r1_0, k1_pay1 (View.ld x0 r1_0) (View.ld x1 r1_1)⟩]

theorem cover1_2 (p0 : Vec F S10000x32 .f32) (y : S10000x32.Idx) :
    ∃ pc ∈ ([⟨r1_0, p0⟩] : List (View.Piece (Elt F) S10000x32 .f32)), y ∈ pc.1.set :=
  View.cover_of_tiled [⟨r1_0, p0⟩] S10000x32.size (by rfl) y

set_option maxHeartbeats 1000000 in

theorem sound_kernel1 (c : Dev nD) (E : Set ℕ) (i : grid1.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Half2.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x32 := Rect.unit (s := S10000x32) ![0, 0] S10000x32.size inb_S10000x32_S10000x32_0_0
abbrev r2_1 : Rect S32x64 := Rect.unit (s := S32x64) ![0, 0] S32x64.size inb_S32x64_S32x64_0_0
abbrev r2_2 : Rect S10000x64 := Rect.unit (s := S10000x64) ![0, 0] S10000x64.size inb_S10000x64_S10000x64_0_0

def out2_2 (x0 : Vec F S10000x32 .f32) (x1 : Vec F S32x64 .f32) : Vec F S10000x64 .f32 :=
  View.canon [⟨r2_2, k2_pay1 (View.ld x0 r2_0) (View.ld x1 r2_1)⟩]

theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

set_option maxHeartbeats 1000000 in

theorem sound_kernel2 (c : Dev nD) (E : Set ℕ) (i : grid2.Coords) (arg1 : Memref sig .tc .vmem S10000x32 .f32) (harg1 : arg1.IsWhole) (arg2 : Memref sig .tc .vmem S32x64 .f32) (harg2 : arg2.IsWhole) (arg3 : Memref sig .tc .vmem S10000x64 .f32) (harg3 : arg3.IsWhole)
    (x0 : Vec F S10000x32 .f32) (x1 : Vec F S32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.Half3.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

def out3_2 (x0 : Vec F S10000x64 .f32) (x1 : Vec F S1x64 .f32) : Vec F S10000x64 .f32 :=
  View.canon [⟨r3_0, k3_pay1 (View.ld x0 r3_0) (View.ld x1 r3_1)⟩]

theorem cover3_2 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in

theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Half4.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x64 := Rect.unit (s := S10000x64) ![0, 0] S10000x64.size inb_S10000x64_S10000x64_0_0

def out4_2 (x0 : Vec F S10000x64 .f32) (x1 : Vec F S64x64 .f32) : Vec F S10000x64 .f32 :=
  View.canon [⟨r4_2, k4_pay1 (View.ld x0 r4_0) (View.ld x1 r4_1)⟩]

theorem cover4_2 (p0 : Vec F S10000x64 .f32) (y : S10000x64.Idx) :
    ∃ pc ∈ ([⟨r4_2, p0⟩] : List (View.Piece (Elt F) S10000x64 .f32)), y ∈ pc.1.set :=
  View.cover_of_tiled [⟨r4_2, p0⟩] S10000x64.size (by rfl) y

set_option maxHeartbeats 1000000 in

theorem sound_kernel4 (c : Dev nD) (E : Set ℕ) (i : grid4.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.Half5.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0

def out5_2 (x0 : Vec F S10000x64 .f32) (x1 : Vec F S1x64 .f32) : Vec F S10000x64 .f32 :=
  View.canon [⟨r5_0, k5_pay1 (View.ld x0 r5_0) (View.ld x1 r5_1)⟩]

theorem cover5_2 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

set_option maxHeartbeats 1000000 in

theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Half6.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : ℕ → Vec F S512x64 .f32
  | 0 => k6_pay1 (F := F)
  | n + 1 => if h : n < cfg6.N then k6_pay2 (iblk6 V c 0 ⟨n, h⟩) (iblk6 V c 1 ⟨n, h⟩) (acc6 c n) else acc6 c n

theorem acc6_zero (c : Dev nD) : acc6 V c 0 = k6_pay1 (F := F) := rfl

theorem acc6_succ (c : Dev nD) (t : Fin cfg6.N) :
    acc6 V c (t.val + 1) = k6_pay2 (iblk6 V c 0 t) (iblk6 V c 1 t) (acc6 V c t.val) := by
  obtain ⟨n, hn⟩ := t
  exact (dif_pos hn)

abbrev scM6 : Memref sig .tc .vmem S512x64 .f32 := Memref.whole cc6_scratch0

def Phi6 (c : Dev nD) (n : Fin (cfg6.N + 1)) : sProp 𝕄 :=
  iprop((∃ f : Vec F S512x64 .f32, ⌜n.val ≠ 0 → f = acc6 V c n.val⌝ ∗ owns (c : Thread nD τ) scM6 fullShare f)
    ∗ Pipeline.scopedRestBut (Ix := Unit) (Name := ℕ) (U := UR sig nD τ) (Lvl := ℕ) (Val := Elt F) spec6 c [cc6_scratch0]
    ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c (t.val + 1)
  Φ n := Phi6 V c n
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c (t.val + 1) := by dsimp only [dat6]

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 19 :=
  (by decide +kernel : ∀ t : Fin grid6.N, cond6_1 (grid6.coords t) ↔ t.val = 19)

theorem Φ6_in (c : Dev nD) : (iprop((∃ r, prngReg c r) ∗ Pipeline.scopedRest (Ix := Unit) (Name := ℕ) (U := UR sig nD τ) (Lvl := ℕ) (Val := Elt F) spec6 c) : sProp 𝕄) ⊢ (dat6 V c).Φ 0 := by
  rw [show (dat6 V c).Φ 0 = Phi6 V c 0 from rfl]
  unfold Phi6
  rw [scopedRest6_split]
  simp only [scM6, owns_whole]
  iintro ⟨Hg, ⟨%f, HS⟩, HR⟩
  isplitl [HS]
  · iexists f; isplitr
    · ipureintro; intro h; exact absurd rfl h
    iexact HS
  isplitl [HR]; · iexact HR
  iexact Hg

theorem Φ6_out (c : Dev nD) : (dat6 V c).Φ (Fin.last cfg6.N) ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last cfg6.N) = Phi6 V c (Fin.last cfg6.N) from rfl]
  unfold Phi6
  rw [scopedRest6_split]
  simp only [scM6, owns_whole]
  iintro ⟨⟨%f, -, HS⟩, HR, Hg⟩
  isplitl [Hg]; · iexact Hg
  isplitl [HS]
  · iexists f; iexact HS
  iexact HR

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

theorem liveAt6_0 : ∀ t : Fin cfg6.N, cfg6.idle 0 (grid6.coords t) = false := by decide +kernel
theorem liveAt6_1 : ∀ t : Fin cfg6.N, cfg6.idle 1 (grid6.coords t) = false := by decide +kernel

theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel

theorem liveAt6_2 : ∀ t : Fin cfg6.N, cond6_1 (grid6.coords t) → cfg6.idle 2 (grid6.coords t) = false := by decide +kernel

theorem hz6 : (![0, 0] : Fin 2 → Nat) = fun _ => 0 := funext fun a => by fin_cases a <;> rfl

set_option maxHeartbeats 1000000 in

theorem run6_B (c : Dev nD) (i : grid6.Coords) (arg1 : Memref sig .tc .vmem S5000x1 .i32) (harg1 : arg1.IsWhole) (arg2 : Memref sig .tc .vmem S5000x64 .f32) (harg2 : arg2.IsWhole) (arg3 : Memref sig .tc .vmem S512x64 .f32) (harg3 : arg3.IsWhole) (arg4 : Memref sig .tc .vmem S512x64 .f32) (harg4 : arg4.IsWhole)
    (hc0 : ¬cond6_0 i) (hc1 : ¬cond6_1 i)
    (x0 : Vec F S5000x1 .i32) (x1 : Vec F S5000x64 .f32) (xs : Vec F S512x64 .f32) (E : Set ℕ) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_singleton_self _, View.mem_set_unit_zero hz6 inb_S512x64_S512x64_0_0 y⟩)]
  rw [View.canon_unit_zero hz6]
  simp only [View.readAt_eq_ld, View.ld_unit_zero (S := S5000x1) hz6, View.ld_unit_zero (S := S5000x64) hz6, View.ld_unit_zero (S := S512x64) hz6]

set_option maxHeartbeats 1000000 in

theorem run6_A (c : Dev nD) (i : grid6.Coords) (arg1 : Memref sig .tc .vmem S5000x1 .i32) (harg1 : arg1.IsWhole) (arg2 : Memref sig .tc .vmem S5000x64 .f32) (harg2 : arg2.IsWhole) (arg3 : Memref sig .tc .vmem S512x64 .f32) (harg3 : arg3.IsWhole) (arg4 : Memref sig .tc .vmem S512x64 .f32) (harg4 : arg4.IsWhole)
    (hc0 : cond6_0 i) (hc1 : ¬cond6_1 i)
    (x0 : Vec F S5000x1 .i32) (x1 : Vec F S5000x64 .f32) (E : Set ℕ) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero hz6 inb_S512x64_S512x64_0_0 y⟩)]
  rw [View.canon_cons_unit_zero (S := S512x64) hz6, View.readCov_unit_zero (S := S512x64) _ hz6]
  simp only [View.readAt_eq_ld, View.ld_unit_zero (S := S5000x1) hz6, View.ld_unit_zero (S := S5000x64) hz6]

set_option maxHeartbeats 1000000 in

theorem run6_C (c : Dev nD) (i : grid6.Coords) (arg1 : Memref sig .tc .vmem S5000x1 .i32) (harg1 : arg1.IsWhole) (arg2 : Memref sig .tc .vmem S5000x64 .f32) (harg2 : arg2.IsWhole) (arg3 : Memref sig .tc .vmem S512x64 .f32) (harg3 : arg3.IsWhole) (arg4 : Memref sig .tc .vmem S512x64 .f32) (harg4 : arg4.IsWhole)
    (hc0 : ¬cond6_0 i) (hc1 : cond6_1 i)
    (x0 : Vec F S5000x1 .i32) (x1 : Vec F S5000x64 .f32) (xs : Vec F S512x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.read_writes_eq_canon _ _ _ (fun y => ⟨_, List.mem_singleton_self _, View.mem_set_unit_zero hz6 inb_S512x64_S512x64_0_0 y⟩)]
    rw [View.canon_unit_zero (S := S512x64) hz6, View.readCov_unit_zero (S := S512x64) _ hz6]
    simp only [View.readAt_eq_ld, View.ld_unit_zero (S := S5000x1) hz6, View.ld_unit_zero (S := S5000x64) hz6, View.ld_unit_zero (S := S512x64) hz6]
  iexists _; isplitr
  swap; · iexact HS
  ipureintro
  sl_unfold_words
  rw [View.read_writes_eq_canon _ _ _ (fun y => ⟨_, List.mem_singleton_self _, View.mem_set_unit_zero hz6 inb_S512x64_S512x64_0_0 y⟩)]
  rw [View.canon_unit_zero (S := S512x64) hz6]
  simp only [View.readAt_eq_ld, View.ld_unit_zero (S := S5000x1) hz6, View.ld_unit_zero (S := S5000x64) hz6, View.ld_unit_zero (S := S512x64) hz6]

abbrev ms6_0 (t : Fin cfg6.N) : Memref sig .tc .vmem S5000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x64 .f32 := win6_2.stage (cfg6.slots t 2)
abbrev hs6_2 (t : Fin cfg6.N) : (ms6_2 t).IsWhole := hstage6_2 ((cfg6.slots t 2).cast nbuf6_2)

theorem Phi6_castSucc (c : Dev nD) (t : Fin cfg6.N) :
    (dat6 V c).Φ t.castSucc = iprop((∃ f : Vec F S512x64 .f32, ⌜t.val ≠ 0 → f = acc6 V c t.val⌝ ∗ owns (c : Thread nD τ) scM6 fullShare f)
      ∗ Pipeline.scopedRestBut (Ix := Unit) (Name := ℕ) (U := UR sig nD τ) (Lvl := ℕ) (Val := Elt F) spec6 c [cc6_scratch0]
      ∗ (∃ r, prngReg c r)) := rfl

theorem Phi6_succ (c : Dev nD) (t : Fin cfg6.N) :
    (dat6 V c).Φ t.succ = iprop((∃ f : Vec F S512x64 .f32, ⌜t.val + 1 ≠ 0 → f = acc6 V c (t.val + 1)⌝ ∗ owns (c : Thread nD τ) scM6 fullShare f)
      ∗ Pipeline.scopedRestBut (Ix := Unit) (Name := ℕ) (U := UR sig nD τ) (Lvl := ℕ) (Val := Elt F) spec6 c [cc6_scratch0]
      ∗ (∃ r, prngReg c r)) := rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [Phi6_castSucc, Phi6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 20 := lt_of_lt_of_eq t.isLt (show cfg6.N = 20 from N_6)
  rw [acc6_succ V c t]
  by_cases h1 : t.val = 19
  · have h0 : ¬t.val = 0 := by omega
    rw [show (dat6 V c).leavesExact 2 t = owns (c : Thread nD τ) (ms6_2 t) fullShare ((dat6 V c).after 2 t) from by
      unfold Dat.leavesExact; rw [liveAt6_2 t ((hcond6_1 t).mpr h1)], after6_2, acc6_succ V c t]
    iintro ⟨⟨⟨%fs, %hfs, HS⟩, HR, Hg⟩, Ho, ⟨%d0, H0⟩, ⟨%d1, H1⟩, ⟨%d2, H2⟩⟩
    obtain rfl := hfs h0
    iapply (run6_C c (grid6.coords t) _ _ _ _ _ _ _ _ (fun h => h0 ((hcond6_0 t).mp h)) ((hcond6_1 t).mpr h1) (iblk6 V c 0 t) (iblk6 V c 1 t) (acc6 V c t.val) Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]
      · iexists _; isplitr; · ipureintro; intro _; rfl
        iexact HS
      isplitl [HR]; · iexact HR
      iexact Hg
    isplitl [Ho]; · iexact Ho
    isplitl [H0]; · iexact H0
    isplitl [H1]; · iexact H1
    iexact H2
  · have hc1 : ¬cond6_1 (grid6.coords t) := fun h => h1 ((hcond6_1 t).mp h)
    rw [Dat.leavesExact_idle (dat6 V c) 2 t (idleAt6_2 t hc1) (noFlush6_2 t hc1)]
    by_cases h0 : t.val = 0
    · rw [h0, acc6_zero]
      iintro ⟨⟨⟨%fs, -, HS⟩, HR, Hg⟩, Ho, ⟨%d0, H0⟩, ⟨%d1, H1⟩, ⟨%d2, H2⟩⟩
      iapply (run6_A c (grid6.coords t) _ _ _ _ _ _ _ _ ((hcond6_0 t).mpr h0) hc1 (iblk6 V c 0 t) (iblk6 V c 1 t) Set.univ _)
      isplitl [H0]; · iexact H0
      isplitl [H1]; · iexact H1
      isplitl [HS]; · iexists _; iexact HS
      iintro ⟨H0, H1, HS⟩
      isplitl [HS HR Hg]
      · isplitl [HS]
        · iexists _; isplitr; · ipureintro; intro _; rfl
          iexact HS
        isplitl [HR]; · iexact HR
        iexact Hg
      isplitl [Ho]; · iexact Ho
      isplitl [H0]; · iexact H0
      isplitl [H1]; · iexact H1
      iexists _; iexact H2
    · iintro ⟨⟨⟨%fs, %hfs, HS⟩, HR, Hg⟩, Ho, ⟨%d0, H0⟩, ⟨%d1, H1⟩, ⟨%d2, H2⟩⟩
      obtain rfl := hfs h0
      iapply (run6_B c (grid6.coords t) _ _ _ _ _ _ _ _ (fun h => h0 ((hcond6_0 t).mp h)) hc1 (iblk6 V c 0 t) (iblk6 V c 1 t) (acc6 V c t.val) Set.univ _)
      isplitl [H0]; · iexact H0
      isplitl [H1]; · iexact H1
      isplitl [HS]; · iexact HS
      iintro ⟨H0, H1, HS⟩
      isplitl [HS HR Hg]
      · isplitl [HS]
        · iexists _; isplitr; · ipureintro; intro _; rfl
          iexact HS
        isplitl [HR]; · iexact HR
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Half7.lean ====
import proofs.«410316_j20426864460069_3_alg».proof.Proof.Gen.KernelIdeal.Launch
import proofs.«410316_j20426864460069_3_alg».proof.Proof.Gen.KernelIdeal.Skeleton
import proofs.«410316_j20426864460069_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S512x5 := Rect.unit (s := S512x5) ![0, 0] S512x5.size inb_S512x5_S512x5_0_0

def out7_5 (x0 : Vec F S512x64 .f32) (x1 : Vec F S64x32 .f32) (x2 : Vec F S1x32 .f32) (x3 : Vec F S32x5 .f32) (x4 : Vec F S1x5 .f32) : Vec F S512x5 .f32 :=
  View.canon [⟨r7_0, k7_pay1 (View.ld x0 (Rect.unit (s := S512x64) ![0, 0] S512x64.size inb_S512x64_S512x64_0_0)) (View.ld x1 (Rect.unit (s := S64x32) ![0, 0] S64x32.size inb_S64x32_S64x32_0_0)) (View.ld x2 (Rect.unit (s := S1x32) ![0, 0] S1x32.size inb_S1x32_S1x32_0_0)) (View.ld x3 (Rect.unit (s := S32x5) ![0, 0] S32x5.size inb_S32x5_S32x5_0_0)) (View.ld x4 (Rect.unit (s := S1x5) ![0, 0] S1x5.size inb_S1x5_S1x5_0_0))⟩]

theorem cover7_5 (p0 : Vec F S512x5 .f32) (y : S512x5.Idx) :
    ∃ pc ∈ ([⟨r7_0, p0⟩] : List (View.Piece (Elt F) S512x5 .f32)), y ∈ pc.1.set :=
  View.cover_of_tiled [⟨r7_0, p0⟩] S512x5.size (by rfl) y

set_option maxHeartbeats 1000000 in

theorem sound_kernel7 (c : Dev nD) (E : Set ℕ) (i : grid7.Coords) (arg1 : Memref sig .tc .vmem S512x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x5 .f32) (harg4 : arg4.IsWhole) (arg5 : Memref sig .tc .vmem S1x5 .f32) (harg5 : arg5.IsWhole) (arg6 : Memref sig .tc .vmem S512x5 .f32) (harg6 : arg6.IsWhole)
    (x0 : Vec F S512x64 .f32) (x1 : Vec F S64x32 .f32) (x2 : Vec F S1x32 .f32) (x3 : Vec F S32x5 .f32) (x4 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__mlp_kernel i arg1 harg1 arg2 harg2 arg3 harg3 arg4 harg4 arg5 harg5 arg6 harg6) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.Pdats.lean ====
import proofs.«410316_j20426864460069_3_alg».proof.Proof.Half0
import proofs.«410316_j20426864460069_3_alg».proof.Proof.Half1
import proofs.«410316_j20426864460069_3_alg».proof.Proof.Half2
import proofs.«410316_j20426864460069_3_alg».proof.Proof.Half3
import proofs.«410316_j20426864460069_3_alg».proof.Proof.Half4
import proofs.«410316_j20426864460069_3_alg».proof.Proof.Half5
import proofs.«410316_j20426864460069_3_alg».proof.Proof.Half6
import proofs.«410316_j20426864460069_3_alg».proof.Proof.Half7
import proofs.«410316_j20426864460069_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev U3 (c : Dev nD) : Valuation τ sig (Elt F) := Gen.V3 m c

def U4 (c : Dev nD) : Valuation τ sig (Elt F) := Function.update (U3 m c) main_v30 ((dat0 (rd (U3 m)) c).arrAt 2 cfg0.N)
abbrev U5 (c : Dev nD) : Valuation τ sig (Elt F) := StableHlo.after hostOps1 (U4 m c)
def U6 (c : Dev nD) : Valuation τ sig (Elt F) := Function.update (U5 m c) main_v45 ((dat1 (rd (U5 m)) c).arrAt 2 cfg1.N)
def U7 (c : Dev nD) : Valuation τ sig (Elt F) := Function.update (U6 m c) main_v46 ((dat2 (rd (U6 m)) c).arrAt 2 cfg2.N)
abbrev U8 (c : Dev nD) : Valuation τ sig (Elt F) := StableHlo.after hostOps3 (U7 m c)
def U9 (c : Dev nD) : Valuation τ sig (Elt F) := Function.update (U8 m c) main_v61 ((dat3 (rd (U8 m)) c).arrAt 2 cfg3.N)
def U10 (c : Dev nD) : Valuation τ sig (Elt F) := Function.update (U9 m c) main_v62 ((dat4 (rd (U9 m)) c).arrAt 2 cfg4.N)
abbrev U11 (c : Dev nD) : Valuation τ sig (Elt F) := StableHlo.after hostOps5 (U10 m c)
def U12 (c : Dev nD) : Valuation τ sig (Elt F) := Function.update (U11 m c) main_v77 ((dat5 (rd (U11 m)) c).arrAt 2 cfg5.N)
abbrev U13 (c : Dev nD) : Valuation τ sig (Elt F) := StableHlo.after hostOps6 (U12 m c)
def U14 (c : Dev nD) : Valuation τ sig (Elt F) := Function.update (U13 m c) main_v79 ((dat6 (rd (U13 m)) c).arrAt 2 cfg6.N)
abbrev U15 (c : Dev nD) : Valuation τ sig (Elt F) := StableHlo.after hostOps7 (U14 m c)
def U16 (c : Dev nD) : Valuation τ sig (Elt F) := Function.update (U15 m c) main_v82 ((dat7 (rd (U15 m)) c).arrAt 5 cfg7.N)

def outs : Gen.Outs (F := F) := fun n r c =>
  match n with
  | 4 => U4 m c r
  | 6 => U6 m c r
  | 7 => U7 m c r
  | 9 => U9 m c r
  | 10 => U10 m c r
  | 12 => U12 m c r
  | 14 => U14 m c r
  | 16 => U16 m c r
  | _ => U3 m c r

theorem V4_eq (c : Dev nD) : Gen.V4 m (outs m) c = U4 m c := by
  show Function.update (Gen.V3 m c) main_v30 (U4 m c main_v30) = U4 m c
  unfold U4; rw [Function.update_self]
theorem V5_eq (c : Dev nD) : Gen.V5 m (outs m) c = U5 m c := by
  show StableHlo.after hostOps1 (Gen.V4 m (outs m) c) = _; rw [V4_eq]
theorem V6_eq (c : Dev nD) : Gen.V6 m (outs m) c = U6 m c := by
  show Function.update (Gen.V5 m (outs m) c) main_v45 (U6 m c main_v45) = U6 m c
  rw [V5_eq]; unfold U6; rw [Function.update_self]
theorem V7_eq (c : Dev nD) : Gen.V7 m (outs m) c = U7 m c := by
  show Function.update (Gen.V6 m (outs m) c) main_v46 (U7 m c main_v46) = U7 m c
  rw [V6_eq]; unfold U7; rw [Function.update_self]
theorem V8_eq (c : Dev nD) : Gen.V8 m (outs m) c = U8 m c := by
  show StableHlo.after hostOps3 (Gen.V7 m (outs m) c) = _; rw [V7_eq]
theorem V9_eq (c : Dev nD) : Gen.V9 m (outs m) c = U9 m c := by
  show Function.update (Gen.V8 m (outs m) c) main_v61 (U9 m c main_v61) = U9 m c
  rw [V8_eq]; unfold U9; rw [Function.update_self]
theorem V10_eq (c : Dev nD) : Gen.V10 m (outs m) c = U10 m c := by
  show Function.update (Gen.V9 m (outs m) c) main_v62 (U10 m c main_v62) = U10 m c
  rw [V9_eq]; unfold U10; rw [Function.update_self]
theorem V11_eq (c : Dev nD) : Gen.V11 m (outs m) c = U11 m c := by
  show StableHlo.after hostOps5 (Gen.V10 m (outs m) c) = _; rw [V10_eq]
theorem V12_eq (c : Dev nD) : Gen.V12 m (outs m) c = U12 m c := by
  show Function.update (Gen.V11 m (outs m) c) main_v77 (U12 m c main_v77) = U12 m c
  rw [V11_eq]; unfold U12; rw [Function.update_self]
theorem V13_eq (c : Dev nD) : Gen.V13 m (outs m) c = U13 m c := by
  show StableHlo.after hostOps6 (Gen.V12 m (outs m) c) = _; rw [V12_eq]
theorem V14_eq (c : Dev nD) : Gen.V14 m (outs m) c = U14 m c := by
  show Function.update (Gen.V13 m (outs m) c) main_v79 (U14 m c main_v79) = U14 m c
  rw [V13_eq]; unfold U14; rw [Function.update_self]
theorem V15_eq (c : Dev nD) : Gen.V15 m (outs m) c = U15 m c := by
  show StableHlo.after hostOps7 (Gen.V14 m (outs m) c) = _; rw [V14_eq]
theorem V16_eq (c : Dev nD) : Gen.V16 m (outs m) c = U16 m c := by
  show Function.update (Gen.V15 m (outs m) c) main_v82 (U16 m c main_v82) = U16 m c
  rw [V15_eq]; unfold U16; rw [Function.update_self]

def pdats : (p : Fin 8) → (c : Dev nD) → Dat τ (Elt F) Unit ℕ (UR sig nD τ) ℕ (cfgs p) c
  | ⟨0, _⟩ => fun c => dat0 (rd (U3 m)) c
  | ⟨1, _⟩ => fun c => dat1 (rd (U5 m)) c
  | ⟨2, _⟩ => fun c => dat2 (rd (U6 m)) c
  | ⟨3, _⟩ => fun c => dat3 (rd (U8 m)) c
  | ⟨4, _⟩ => fun c => dat4 (rd (U9 m)) c
  | ⟨5, _⟩ => fun c => dat5 (rd (U11 m)) c
  | ⟨6, _⟩ => fun c => dat6 (rd (U13 m)) c
  | ⟨7, _⟩ => fun c => dat7 (rd (U15 m)) c

end Cert.KernelIdeal.Hand

end
-- ==== Proof.Segs.lean ====
import proofs.«410316_j20426864460069_3_alg».proof.Proof.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem swapE (P Q : sProp 𝕄) : iprop(P ∗ Q) ⊢ iprop(Q ∗ P) := by
  iintro ⟨H1, H2⟩
  isplitl [H2]; · iexact H2
  iexact H1

-- a kernel region as a step between two thread states: its arrays leave the held buffers on entry and return on exit, only the output window's changed
set_option backward.isDefEq.respectTransparency.types false in
def regOf {p : Fin 8} (lf : Pipeline.LaunchFacts (nD := nD) (τ := τ) cfgs p) (Ui Uo : Dev nD → Valuation τ sig (Elt F))
    (hK : IsEmpty (Fin (pcfgs (F := F) p).pre.K))
    (hbody : ∀ c, Pipeline.BodyObligationLoose (pdats m p c) defs₀ 𝒱₀ () Set.univ)
    (howed : ∀ c t, (pdats m p c).owed t = 0) (hrec : ∀ c t, (pdats m p c).recorded t = Set.univ) (hq : ∀ c w, (pdats m p c).q w = fullShare)
    (hA : ∀ c w, (pdats m p c).A w = rd Ui c (Pipeline.arrRef (cfgs p).spec w))
    (wo : Fin (cfgs p).W) (hio : ∀ w, w ≠ wo → ((cfgs p).win w).isOut = false)
    (hUo : ∀ c, Uo c = Function.update (Ui c) (Proc.devRef .tc (Pipeline.arrRef (cfgs p).spec wo)) ((pdats m p c).arrAt wo (cfgs p).N))
    (hin : ∀ c, iprop((∃ r, prngReg c r) ∗ Pipeline.scopedRest (cfgs p).spec c) ⊢ (pdats m p c).Φ 0)
    (hout : ∀ c, (pdats m p c).Φ (Fin.last (cfgs p).N) ⊢ iprop((∃ r, prngReg c r) ∗ Pipeline.scopedRest (cfgs p).spec c)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Ui c) ∗ R c)
  post c := iprop(StableHlo.held (c : Thread nD τ) (Pipeline.ucRefs τ sig) (Uo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Ui c)
  hentry c := by
    haveI := hK
    rw [Pipeline.ownSems0_none]
    have hsplit := Pipeline.arrays_of_unscopedBufs (p := p) (pcfgs (F := F)) Gen.adm (pdats m) lf.win lf.arr_whole c
      ((pdats m p c).share_full (hq c)) (rd Ui c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H2 := (hout c) $$ H
    icases H2 with ⟨Hp, Hr⟩
    isplitl [Hp]; · iexact Hp
    isplitr; · iempintro
    iexact Hr
  hexit c := by
    have hF : ∀ w, (pdats m p c).arrAt w (cfgs p).N = rd Uo c (Pipeline.arrRef (cfgs p).spec w) := fun w => by
      refine Eq.trans ?_ (congrFun (hUo c) _).symm
      by_cases h : w = wo
      · subst h; rw [Function.update_self]
      · exact (((pdats m p c).arrAt_in w (hio w h) _).trans (hA c w)).trans
          (Function.update_of_ne (StableHlo.devRef_ne_of_ne fun e => h (lf.win.arr_inj e)) _ _).symm
    have hrest : ∀ b, b ∉ Finset.univ.image (Pipeline.arrRef (cfgs p).spec) → rd Uo c b = rd Ui c b := fun b hb =>
      (congrFun (hUo c) _).trans (Function.update_of_ne (StableHlo.devRef_ne_of_ne fun e =>
        hb (Finset.mem_image.mpr ⟨wo, Finset.mem_univ _, e.symm⟩)) _ _)
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (rd Ui c) (rd Uo c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) Gen.adm (pdats m) () defs₀ 𝒱₀ L lv 0 :=
  regOf m launch0 (U3 m) (U4 m) (inferInstanceAs (IsEmpty (Fin 0))) (fun c => (body_obligation0 (rd (U3 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg1 : Pipeline.RegionSeg (pcfgs (F := F)) Gen.adm (pdats m) () defs₀ 𝒱₀ L lv 1 :=
  regOf m launch1 (U5 m) (U6 m) (inferInstanceAs (IsEmpty (Fin 0))) (fun c => (body_obligation1 (rd (U5 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg2 : Pipeline.RegionSeg (pcfgs (F := F)) Gen.adm (pdats m) () defs₀ 𝒱₀ L lv 2 :=
  regOf m launch2 (U6 m) (U7 m) (inferInstanceAs (IsEmpty (Fin 0))) (fun c => (body_obligation2 (rd (U6 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg3 : Pipeline.RegionSeg (pcfgs (F := F)) Gen.adm (pdats m) () defs₀ 𝒱₀ L lv 3 :=
  regOf m launch3 (U8 m) (U9 m) (inferInstanceAs (IsEmpty (Fin 0))) (fun c => (body_obligation3 (rd (U8 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg4 : Pipeline.RegionSeg (pcfgs (F := F)) Gen.adm (pdats m) () defs₀ 𝒱₀ L lv 4 :=
  regOf m launch4 (U9 m) (U10 m) (inferInstanceAs (IsEmpty (Fin 0))) (fun c => (body_obligation4 (rd (U9 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg5 : Pipeline.RegionSeg (pcfgs (F := F)) Gen.adm (pdats m) () defs₀ 𝒱₀ L lv 5 :=
  regOf m launch5 (U11 m) (U12 m) (inferInstanceAs (IsEmpty (Fin 0))) (fun c => (body_obligation5 (rd (U11 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg6 : Pipeline.RegionSeg (pcfgs (F := F)) Gen.adm (pdats m) () defs₀ 𝒱₀ L lv 6 :=
  regOf m launch6 (U13 m) (U14 m) (inferInstanceAs (IsEmpty (Fin 0))) (fun c => (body_obligation6 (rd (U13 m)) c).loose)
    (fun _ _ => rfl) (fun _ _ => rfl) (fun _ _ => rfl) (fun _ _ => rfl) 2 (by decide) (fun _ => rfl) (Φ6_in (rd (U13 m))) (Φ6_out (rd (U13 m)))

set_option backward.isDefEq.respectTransparency.types false in
def reg7 : Pipeline.RegionSeg (pcfgs (F := F)) Gen.adm (pdats m) () defs₀ 𝒱₀ L lv 7 :=
  regOf m launch7 (U15 m) (U16 m) (inferInstanceAs (IsEmpty (Fin 0))) (fun c => (body_obligation7 (rd (U15 m)) c).loose)
    (fun _ _ => rfl) (fun _ _ => rfl) (fun _ _ => rfl) (fun _ _ => rfl) 5 (by decide) (fun _ => rfl) (fun _ => swapE _ _) (fun _ => swapE _ _)

end Cert.KernelIdeal.Hand

end
-- ==== Proof.RunAll.lean ====
import proofs.«410316_j20426864460069_3_alg».proof.Proof.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E : Fin 9 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hpre0 (c : Dev nD) : iprop(StableHlo.held (c : Thread nD τ) (Pipeline.ucRefs τ sig) (Gen.V3 m c) ∗ E (F := F) 0 c) ⊢ (reg0 m).pre c := .rfl
theorem hpost0 (c : Dev nD) : (reg0 m).post c ⊢ iprop(StableHlo.held (c : Thread nD τ) (Pipeline.ucRefs τ sig) (Gen.V4 m (outs m) c) ∗ E (F := F) 1 c) := by rw [V4_eq]; exact .rfl
theorem hpre1 (c : Dev nD) : iprop(StableHlo.held (c : Thread nD τ) (Pipeline.ucRefs τ sig) (Gen.V5 m (outs m) c) ∗ E (F := F) 1 c) ⊢ (reg1 m).pre c := by rw [V5_eq]; exact .rfl
theorem hpost1 (c : Dev nD) : (reg1 m).post c ⊢ iprop(StableHlo.held (c : Thread nD τ) (Pipeline.ucRefs τ sig) (Gen.V6 m (outs m) c) ∗ E (F := F) 2 c) := by rw [V6_eq]; exact .rfl
theorem hpre2 (c : Dev nD) : iprop(StableHlo.held (c : Thread nD τ) (Pipeline.ucRefs τ sig) (Gen.V6 m (outs m) c) ∗ E (F := F) 2 c) ⊢ (reg2 m).pre c := by rw [V6_eq]; exact .rfl
theorem hpost2 (c : Dev nD) : (reg2 m).post c ⊢ iprop(StableHlo.held (c : Thread nD τ) (Pipeline.ucRefs τ sig) (Gen.V7 m (outs m) c) ∗ E (F := F) 3 c) := by rw [V7_eq]; exact .rfl
theorem hpre3 (c : Dev nD) : iprop(StableHlo.held (c : Thread nD τ) (Pipeline.ucRefs τ sig) (Gen.V8 m (outs m) c) ∗ E (F := F) 3 c) ⊢ (reg3 m).pre c := by rw [V8_eq]; exact .rfl
theorem hpost3 (c : Dev nD) : (reg3 m).post c ⊢ iprop(StableHlo.held (c : Thread nD τ) (Pipeline.ucRefs τ sig) (Gen.V9 m (outs m) c) ∗ E (F := F) 4 c) := by rw [V9_eq]; exact .rfl
theorem hpre4 (c : Dev nD) : iprop(StableHlo.held (c : Thread nD τ) (Pipeline.ucRefs τ sig) (Gen.V9 m (outs m) c) ∗ E (F := F) 4 c) ⊢ (reg4 m).pre c := by rw [V9_eq]; exact .rfl
theorem hpost4 (c : Dev nD) : (reg4 m).post c ⊢ iprop(StableHlo.held (c : Thread nD τ) (Pipeline.ucRefs τ sig) (Gen.V10 m (outs m) c) ∗ E (F := F) 5 c) := by rw [V10_eq]; exact .rfl
theorem hpre5 (c : Dev nD) : iprop(StableHlo.held (c : Thread nD τ) (Pipeline.ucRefs τ sig) (Gen.V11 m (outs m) c) ∗ E (F := F) 5 c) ⊢ (reg5 m).pre c := by rw [V11_eq]; exact .rfl
theorem hpost5 (c : Dev nD) : (reg5 m).post c ⊢ iprop(StableHlo.held (c : Thread nD τ) (Pipeline.ucRefs τ sig) (Gen.V12 m (outs m) c) ∗ E (F := F) 6 c) := by rw [V12_eq]; exact .rfl
theorem hpre6 (c : Dev nD) : iprop(StableHlo.held (c : Thread nD τ) (Pipeline.ucRefs τ sig) (Gen.V13 m (outs m) c) ∗ E (F := F) 6 c) ⊢ (reg6 m).pre c := by rw [V13_eq]; exact .rfl
theorem hpost6 (c : Dev nD) : (reg6 m).post c ⊢ iprop(StableHlo.held (c : Thread nD τ) (Pipeline.ucRefs τ sig) (Gen.V14 m (outs m) c) ∗ E (F := F) 7 c) := by rw [V14_eq]; exact .rfl
theorem hpre7 (c : Dev nD) : iprop(StableHlo.held (c : Thread nD τ) (Pipeline.ucRefs τ sig) (Gen.V15 m (outs m) c) ∗ E (F := F) 7 c) ⊢ (reg7 m).pre c := by rw [V15_eq]; exact .rfl
theorem hpost7 (c : Dev nD) : (reg7 m).post c ⊢ iprop(StableHlo.held (c : Thread nD τ) (Pipeline.ucRefs τ sig) (Gen.V16 m (outs m) c) ∗ E (F := F) 8 c) := by rw [V16_eq]; exact .rfl
theorem hE8 (c : Dev nD) : E (F := F) 8 c ⊢ (iprop(∃ W, owes (c : Thread nD τ) (0 : CellTallies nD τ sig Unit) W) : sProp 𝕄) := by
  iintro ⟨-, H⟩; iexact H

-- the sixteen items in order: each item's exit state is the next item's entry state
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V16 m (outs m) c b) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m) (reg3 m) (reg4 m) (reg5 m) (reg6 m) (reg7 m))
    (fun c Q => by
      rewrite [main_chain c, Seg.run_eq_chain,
        show (Gen.segs m (outs m) 𝒱₀ L lv (E (F := F)) () (pdats m) (reg0 m) (reg1 m) (reg2 m) (reg3 m) (reg4 m) (reg5 m) (reg6 m) (reg7 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [Gen.segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V16 m (outs m) c))
    (hch := fun c => ⟨.rfl, .rfl, .rfl, hpre0 m c, hpost0 m c, hpre1 m c, (hpost1 m c).trans (hpre2 m c), hpost2 m c, hpre3 m c, (hpost3 m c).trans (hpre4 m c), hpost4 m c, hpre5 m c, hpost5 m c, hpre6 m c, hpost6 m c, hpre7 m c, (hpost7 m c).trans (sep_mono .rfl (hE8 c))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V16 m (outs m) c b)
    (hfin := fun c s' => by
      iintro ⟨Hh, HSI⟩
      unfold StableHlo.held
      imodintro
      iapply (pointsTo_read_all (Pipeline.ucRefs τ sig) (fun b => (((c : Thread nD τ)).1, b)) (Gen.V16 m (outs m) c) s')
      isplitl [Hh] <;> iassumption)
    (hQ := fun _ h => h)

theorem run_value : θ_run defs (onTc (τ := τ) (main (F := F))) ⟨m, fun _ => 0, ρ⟩ (fun r => ∀ c : Dev nD,
      r.2.mem ((c.tc : Thread nD τ).loc main_v82) = (dat7 (rd (U15 m)) c).arrAt 5 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v82 (by decide))).trans (by rw [V16_eq]; unfold U16; rw [Function.update_self]),
    (h c _ (mem_uc main_arg0 (by decide))).trans (Gen.V16_main_arg0 m (outs m) c),
    (h c _ (mem_uc main_arg1 (by decide))).trans (Gen.V16_main_arg1 m (outs m) c),
    (h c _ (mem_uc main_arg2 (by decide))).trans (Gen.V16_main_arg2 m (outs m) c),
    (h c _ (mem_uc main_arg3 (by decide))).trans (Gen.V16_main_arg3 m (outs m) c),
    (h c _ (mem_uc main_arg4 (by decide))).trans (Gen.V16_main_arg4 m (outs m) c),
    (h c _ (mem_uc main_arg5 (by decide))).trans (Gen.V16_main_arg5 m (outs m) c),
    (h c _ (mem_uc main_arg6 (by decide))).trans (Gen.V16_main_arg6 m (outs m) c),
    (h c _ (mem_uc main_arg7 (by decide))).trans (Gen.V16_main_arg7 m (outs m) c),
    (h c _ (mem_uc main_arg8 (by decide))).trans (Gen.V16_main_arg8 m (outs m) c),
    (h c _ (mem_uc main_arg9 (by decide))).trans (Gen.V16_main_arg9 m (outs m) c),
    (h c _ (mem_uc main_arg10 (by decide))).trans (Gen.V16_main_arg10 m (outs m) c),
    (h c _ (mem_uc main_arg11 (by decide))).trans (Gen.V16_main_arg11 m (outs m) c),
    (h c _ (mem_uc main_arg12 (by decide))).trans (Gen.V16_main_arg12 m (outs m) c)⟩) (run_all m ρ)

end Cert.KernelIdeal.Hand

end
-- ==== Proof.Half0K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x3 := Rect.unit (s := S10000x3) ![0, 0] S10000x3.size inb_S10000x3_S10000x3_0_0
abbrev r0_1 : Rect S3x32 := Rect.unit (s := S3x32) ![0, 0] S3x32.size inb_S3x32_S3x32_0_0
abbrev r0_2 : Rect S10000x32 := Rect.unit (s := S10000x32) ![0, 0] S10000x32.size inb_S10000x32_S10000x32_0_0

def out0_2 (x0 : Vec F S10000x3 .f32) (x1 : Vec F S3x32 .f32) : Vec F S10000x32 .f32 :=
  View.canon [⟨r0_2, k0_pay1 (View.ld x0 r0_0) (View.ld x1 r0_1)⟩]

theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

-- the body overwrites the whole output block with the product of the two input blocks
set_option maxHeartbeats 1000000 in
theorem sound_kernel0 (c : Dev nD) (E : Set ℕ) (i : grid0.Coords) (arg1 : Memref sig .tc .vmem S10000x3 .f32) (harg1 : arg1.IsWhole) (arg2 : Memref sig .tc .vmem S3x32 .f32) (harg2 : arg2.IsWhole) (arg3 : Memref sig .tc .vmem S10000x32 .f32) (harg3 : arg3.IsWhole)
    (x0 : Vec F S10000x3 .f32) (x1 : Vec F S3x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.Half1K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0

def out1_2 (x0 : Vec F S10000x32 .f32) (x1 : Vec F S1x32 .f32) : Vec F S10000x32 .f32 :=
  View.canon [⟨r1_0, k1_pay1 (View.ld x0 r1_0) (View.ld x1 r1_1)⟩]

theorem cover1_2 (p0 : Vec F S10000x32 .f32) (y : S10000x32.Idx) :
    ∃ pc ∈ ([⟨r1_0, p0⟩] : List (View.Piece (Elt F) S10000x32 .f32)), y ∈ pc.1.set :=
  View.cover_of_tiled [⟨r1_0, p0⟩] S10000x32.size (by rfl) y

set_option maxHeartbeats 1000000 in

theorem sound_kernel1 (c : Dev nD) (E : Set ℕ) (i : grid1.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Half2K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x32 := Rect.unit (s := S10000x32) ![0, 0] S10000x32.size inb_S10000x32_S10000x32_0_0
abbrev r2_1 : Rect S32x64 := Rect.unit (s := S32x64) ![0, 0] S32x64.size inb_S32x64_S32x64_0_0
abbrev r2_2 : Rect S10000x64 := Rect.unit (s := S10000x64) ![0, 0] S10000x64.size inb_S10000x64_S10000x64_0_0

def out2_2 (x0 : Vec F S10000x32 .f32) (x1 : Vec F S32x64 .f32) : Vec F S10000x64 .f32 :=
  View.canon [⟨r2_2, k2_pay1 (View.ld x0 r2_0) (View.ld x1 r2_1)⟩]

theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

set_option maxHeartbeats 1000000 in

theorem sound_kernel2 (c : Dev nD) (E : Set ℕ) (i : grid2.Coords) (arg1 : Memref sig .tc .vmem S10000x32 .f32) (harg1 : arg1.IsWhole) (arg2 : Memref sig .tc .vmem S32x64 .f32) (harg2 : arg2.IsWhole) (arg3 : Memref sig .tc .vmem S10000x64 .f32) (harg3 : arg3.IsWhole)
    (x0 : Vec F S10000x32 .f32) (x1 : Vec F S32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.Half3K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

def out3_2 (x0 : Vec F S10000x64 .f32) (x1 : Vec F S1x64 .f32) : Vec F S10000x64 .f32 :=
  View.canon [⟨r3_0, k3_pay1 (View.ld x0 r3_0) (View.ld x1 r3_1)⟩]

theorem cover3_2 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in

theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Half4K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x64 := Rect.unit (s := S10000x64) ![0, 0] S10000x64.size inb_S10000x64_S10000x64_0_0

def out4_2 (x0 : Vec F S10000x64 .f32) (x1 : Vec F S64x64 .f32) : Vec F S10000x64 .f32 :=
  View.canon [⟨r4_2, k4_pay1 (View.ld x0 r4_0) (View.ld x1 r4_1)⟩]

theorem cover4_2 (p0 : Vec F S10000x64 .f32) (y : S10000x64.Idx) :
    ∃ pc ∈ ([⟨r4_2, p0⟩] : List (View.Piece (Elt F) S10000x64 .f32)), y ∈ pc.1.set :=
  View.cover_of_tiled [⟨r4_2, p0⟩] S10000x64.size (by rfl) y

set_option maxHeartbeats 1000000 in

theorem sound_kernel4 (c : Dev nD) (E : Set ℕ) (i : grid4.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.Half5K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0

def out5_2 (x0 : Vec F S10000x64 .f32) (x1 : Vec F S1x64 .f32) : Vec F S10000x64 .f32 :=
  View.canon [⟨r5_0, k5_pay1 (View.ld x0 r5_0) (View.ld x1 r5_1)⟩]

theorem cover5_2 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

set_option maxHeartbeats 1000000 in

theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Half6K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : ℕ → Vec F S512x64 .f32
  | 0 => k6_pay1 (F := F)
  | n + 1 => if h : n < cfg6.N then k6_pay2 (iblk6 V c 0 ⟨n, h⟩) (iblk6 V c 1 ⟨n, h⟩) (acc6 c n) else acc6 c n

theorem acc6_zero (c : Dev nD) : acc6 V c 0 = k6_pay1 (F := F) := rfl

theorem acc6_succ (c : Dev nD) (t : Fin cfg6.N) :
    acc6 V c (t.val + 1) = k6_pay2 (iblk6 V c 0 t) (iblk6 V c 1 t) (acc6 V c t.val) := by
  obtain ⟨n, hn⟩ := t
  exact (dif_pos hn)

abbrev scM6 : Memref sig .tc .vmem S512x64 .f32 := Memref.whole cc6_scratch0

def Phi6 (c : Dev nD) (n : Fin (cfg6.N + 1)) : sProp 𝕄 :=
  iprop((∃ f : Vec F S512x64 .f32, ⌜n.val ≠ 0 → f = acc6 V c n.val⌝ ∗ owns (c : Thread nD τ) scM6 fullShare f)
    ∗ Pipeline.scopedRestBut (Ix := Unit) (Name := ℕ) (U := UR sig nD τ) (Lvl := ℕ) (Val := Elt F) spec6 c [cc6_scratch0]
    ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c (t.val + 1)
  Φ n := Phi6 V c n
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c (t.val + 1) := by dsimp only [dat6]

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 19 :=
  (by decide +kernel : ∀ t : Fin grid6.N, cond6_1 (grid6.coords t) ↔ t.val = 19)

theorem Φ6_in (c : Dev nD) : (iprop((∃ r, prngReg c r) ∗ Pipeline.scopedRest (Ix := Unit) (Name := ℕ) (U := UR sig nD τ) (Lvl := ℕ) (Val := Elt F) spec6 c) : sProp 𝕄) ⊢ (dat6 V c).Φ 0 := by
  rw [show (dat6 V c).Φ 0 = Phi6 V c 0 from rfl]
  unfold Phi6
  rw [scopedRest6_split]
  simp only [scM6, owns_whole]
  iintro ⟨Hg, ⟨%f, HS⟩, HR⟩
  isplitl [HS]
  · iexists f; isplitr
    · ipureintro; intro h; exact absurd rfl h
    iexact HS
  isplitl [HR]; · iexact HR
  iexact Hg

theorem Φ6_out (c : Dev nD) : (dat6 V c).Φ (Fin.last cfg6.N) ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last cfg6.N) = Phi6 V c (Fin.last cfg6.N) from rfl]
  unfold Phi6
  rw [scopedRest6_split]
  simp only [scM6, owns_whole]
  iintro ⟨⟨%f, -, HS⟩, HR, Hg⟩
  isplitl [Hg]; · iexact Hg
  isplitl [HS]
  · iexists f; iexact HS
  iexact HR

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

theorem liveAt6_0 : ∀ t : Fin cfg6.N, cfg6.idle 0 (grid6.coords t) = false := by decide +kernel
theorem liveAt6_1 : ∀ t : Fin cfg6.N, cfg6.idle 1 (grid6.coords t) = false := by decide +kernel

theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel

theorem liveAt6_2 : ∀ t : Fin cfg6.N, cond6_1 (grid6.coords t) → cfg6.idle 2 (grid6.coords t) = false := by decide +kernel

theorem hz6 : (![0, 0] : Fin 2 → Nat) = fun _ => 0 := funext fun a => by fin_cases a <;> rfl

set_option maxHeartbeats 1000000 in

theorem run6_B (c : Dev nD) (i : grid6.Coords) (arg1 : Memref sig .tc .vmem S5000x1 .i32) (harg1 : arg1.IsWhole) (arg2 : Memref sig .tc .vmem S5000x64 .f32) (harg2 : arg2.IsWhole) (arg3 : Memref sig .tc .vmem S512x64 .f32) (harg3 : arg3.IsWhole) (arg4 : Memref sig .tc .vmem S512x64 .f32) (harg4 : arg4.IsWhole)
    (hc0 : ¬cond6_0 i) (hc1 : ¬cond6_1 i)
    (x0 : Vec F S5000x1 .i32) (x1 : Vec F S5000x64 .f32) (xs : Vec F S512x64 .f32) (E : Set ℕ) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_singleton_self _, View.mem_set_unit_zero hz6 inb_S512x64_S512x64_0_0 y⟩)]
  rw [View.canon_unit_zero hz6]
  simp only [View.readAt_eq_ld, View.ld_unit_zero (S := S5000x1) hz6, View.ld_unit_zero (S := S5000x64) hz6, View.ld_unit_zero (S := S512x64) hz6]

set_option maxHeartbeats 1000000 in

theorem run6_A (c : Dev nD) (i : grid6.Coords) (arg1 : Memref sig .tc .vmem S5000x1 .i32) (harg1 : arg1.IsWhole) (arg2 : Memref sig .tc .vmem S5000x64 .f32) (harg2 : arg2.IsWhole) (arg3 : Memref sig .tc .vmem S512x64 .f32) (harg3 : arg3.IsWhole) (arg4 : Memref sig .tc .vmem S512x64 .f32) (harg4 : arg4.IsWhole)
    (hc0 : cond6_0 i) (hc1 : ¬cond6_1 i)
    (x0 : Vec F S5000x1 .i32) (x1 : Vec F S5000x64 .f32) (E : Set ℕ) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero hz6 inb_S512x64_S512x64_0_0 y⟩)]
  rw [View.canon_cons_unit_zero (S := S512x64) hz6, View.readCov_unit_zero (S := S512x64) _ hz6]
  simp only [View.readAt_eq_ld, View.ld_unit_zero (S := S5000x1) hz6, View.ld_unit_zero (S := S5000x64) hz6]

set_option maxHeartbeats 1000000 in

theorem run6_C (c : Dev nD) (i : grid6.Coords) (arg1 : Memref sig .tc .vmem S5000x1 .i32) (harg1 : arg1.IsWhole) (arg2 : Memref sig .tc .vmem S5000x64 .f32) (harg2 : arg2.IsWhole) (arg3 : Memref sig .tc .vmem S512x64 .f32) (harg3 : arg3.IsWhole) (arg4 : Memref sig .tc .vmem S512x64 .f32) (harg4 : arg4.IsWhole)
    (hc0 : ¬cond6_0 i) (hc1 : cond6_1 i)
    (x0 : Vec F S5000x1 .i32) (x1 : Vec F S5000x64 .f32) (xs : Vec F S512x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.read_writes_eq_canon _ _ _ (fun y => ⟨_, List.mem_singleton_self _, View.mem_set_unit_zero hz6 inb_S512x64_S512x64_0_0 y⟩)]
    rw [View.canon_unit_zero (S := S512x64) hz6, View.readCov_unit_zero (S := S512x64) _ hz6]
    simp only [View.readAt_eq_ld, View.ld_unit_zero (S := S5000x1) hz6, View.ld_unit_zero (S := S5000x64) hz6, View.ld_unit_zero (S := S512x64) hz6]
  iexists _; isplitr
  swap; · iexact HS
  ipureintro
  sl_unfold_words
  rw [View.read_writes_eq_canon _ _ _ (fun y => ⟨_, List.mem_singleton_self _, View.mem_set_unit_zero hz6 inb_S512x64_S512x64_0_0 y⟩)]
  rw [View.canon_unit_zero (S := S512x64) hz6]
  simp only [View.readAt_eq_ld, View.ld_unit_zero (S := S5000x1) hz6, View.ld_unit_zero (S := S5000x64) hz6, View.ld_unit_zero (S := S512x64) hz6]

abbrev ms6_0 (t : Fin cfg6.N) : Memref sig .tc .vmem S5000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x64 .f32 := win6_2.stage (cfg6.slots t 2)
abbrev hs6_2 (t : Fin cfg6.N) : (ms6_2 t).IsWhole := hstage6_2 ((cfg6.slots t 2).cast nbuf6_2)

theorem Phi6_castSucc (c : Dev nD) (t : Fin cfg6.N) :
    (dat6 V c).Φ t.castSucc = iprop((∃ f : Vec F S512x64 .f32, ⌜t.val ≠ 0 → f = acc6 V c t.val⌝ ∗ owns (c : Thread nD τ) scM6 fullShare f)
      ∗ Pipeline.scopedRestBut (Ix := Unit) (Name := ℕ) (U := UR sig nD τ) (Lvl := ℕ) (Val := Elt F) spec6 c [cc6_scratch0]
      ∗ (∃ r, prngReg c r)) := rfl

theorem Phi6_succ (c : Dev nD) (t : Fin cfg6.N) :
    (dat6 V c).Φ t.succ = iprop((∃ f : Vec F S512x64 .f32, ⌜t.val + 1 ≠ 0 → f = acc6 V c (t.val + 1)⌝ ∗ owns (c : Thread nD τ) scM6 fullShare f)
      ∗ Pipeline.scopedRestBut (Ix := Unit) (Name := ℕ) (U := UR sig nD τ) (Lvl := ℕ) (Val := Elt F) spec6 c [cc6_scratch0]
      ∗ (∃ r, prngReg c r)) := rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [Phi6_castSucc, Phi6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 20 := lt_of_lt_of_eq t.isLt (show cfg6.N = 20 from N_6)
  rw [acc6_succ V c t]
  by_cases h1 : t.val = 19
  · have h0 : ¬t.val = 0 := by omega
    rw [show (dat6 V c).leavesExact 2 t = owns (c : Thread nD τ) (ms6_2 t) fullShare ((dat6 V c).after 2 t) from by
      unfold Dat.leavesExact; rw [liveAt6_2 t ((hcond6_1 t).mpr h1)], after6_2, acc6_succ V c t]
    iintro ⟨⟨⟨%fs, %hfs, HS⟩, HR, Hg⟩, Ho, ⟨%d0, H0⟩, ⟨%d1, H1⟩, ⟨%d2, H2⟩⟩
    obtain rfl := hfs h0
    iapply (run6_C c (grid6.coords t) _ _ _ _ _ _ _ _ (fun h => h0 ((hcond6_0 t).mp h)) ((hcond6_1 t).mpr h1) (iblk6 V c 0 t) (iblk6 V c 1 t) (acc6 V c t.val) Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]
      · iexists _; isplitr; · ipureintro; intro _; rfl
        iexact HS
      isplitl [HR]; · iexact HR
      iexact Hg
    isplitl [Ho]; · iexact Ho
    isplitl [H0]; · iexact H0
    isplitl [H1]; · iexact H1
    iexact H2
  · have hc1 : ¬cond6_1 (grid6.coords t) := fun h => h1 ((hcond6_1 t).mp h)
    rw [Dat.leavesExact_idle (dat6 V c) 2 t (idleAt6_2 t hc1) (noFlush6_2 t hc1)]
    by_cases h0 : t.val = 0
    · rw [h0, acc6_zero]
      iintro ⟨⟨⟨%fs, -, HS⟩, HR, Hg⟩, Ho, ⟨%d0, H0⟩, ⟨%d1, H1⟩, ⟨%d2, H2⟩⟩
      iapply (run6_A c (grid6.coords t) _ _ _ _ _ _ _ _ ((hcond6_0 t).mpr h0) hc1 (iblk6 V c 0 t) (iblk6 V c 1 t) Set.univ _)
      isplitl [H0]; · iexact H0
      isplitl [H1]; · iexact H1
      isplitl [HS]; · iexists _; iexact HS
      iintro ⟨H0, H1, HS⟩
      isplitl [HS HR Hg]
      · isplitl [HS]
        · iexists _; isplitr; · ipureintro; intro _; rfl
          iexact HS
        isplitl [HR]; · iexact HR
        iexact Hg
      isplitl [Ho]; · iexact Ho
      isplitl [H0]; · iexact H0
      isplitl [H1]; · iexact H1
      iexists _; iexact H2
    · iintro ⟨⟨⟨%fs, %hfs, HS⟩, HR, Hg⟩, Ho, ⟨%d0, H0⟩, ⟨%d1, H1⟩, ⟨%d2, H2⟩⟩
      obtain rfl := hfs h0
      iapply (run6_B c (grid6.coords t) _ _ _ _ _ _ _ _ (fun h => h0 ((hcond6_0 t).mp h)) hc1 (iblk6 V c 0 t) (iblk6 V c 1 t) (acc6 V c t.val) Set.univ _)
      isplitl [H0]; · iexact H0
      isplitl [H1]; · iexact H1
      isplitl [HS]; · iexact HS
      iintro ⟨H0, H1, HS⟩
      isplitl [HS HR Hg]
      · isplitl [HS]
        · iexists _; isplitr; · ipureintro; intro _; rfl
          iexact HS
        isplitl [HR]; · iexact HR
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.Half7K.lean ====
import proofs.«410316_j20426864460069_3_alg».proof.Proof.Gen.Kernel.Launch
import proofs.«410316_j20426864460069_3_alg».proof.Proof.Gen.Kernel.Skeleton
import proofs.«410316_j20426864460069_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S512x5 := Rect.unit (s := S512x5) ![0, 0] S512x5.size inb_S512x5_S512x5_0_0

def out7_5 (x0 : Vec F S512x64 .f32) (x1 : Vec F S64x32 .f32) (x2 : Vec F S1x32 .f32) (x3 : Vec F S32x5 .f32) (x4 : Vec F S1x5 .f32) : Vec F S512x5 .f32 :=
  View.canon [⟨r7_0, k7_pay1 (View.ld x0 (Rect.unit (s := S512x64) ![0, 0] S512x64.size inb_S512x64_S512x64_0_0)) (View.ld x1 (Rect.unit (s := S64x32) ![0, 0] S64x32.size inb_S64x32_S64x32_0_0)) (View.ld x2 (Rect.unit (s := S1x32) ![0, 0] S1x32.size inb_S1x32_S1x32_0_0)) (View.ld x3 (Rect.unit (s := S32x5) ![0, 0] S32x5.size inb_S32x5_S32x5_0_0)) (View.ld x4 (Rect.unit (s := S1x5) ![0, 0] S1x5.size inb_S1x5_S1x5_0_0))⟩]

theorem cover7_5 (p0 : Vec F S512x5 .f32) (y : S512x5.Idx) :
    ∃ pc ∈ ([⟨r7_0, p0⟩] : List (View.Piece (Elt F) S512x5 .f32)), y ∈ pc.1.set :=
  View.cover_of_tiled [⟨r7_0, p0⟩] S512x5.size (by rfl) y

set_option maxHeartbeats 1000000 in

theorem sound_kernel7 (c : Dev nD) (E : Set ℕ) (i : grid7.Coords) (arg1 : Memref sig .tc .vmem S512x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x5 .f32) (harg4 : arg4.IsWhole) (arg5 : Memref sig .tc .vmem S1x5 .f32) (harg5 : arg5.IsWhole) (arg6 : Memref sig .tc .vmem S512x5 .f32) (harg6 : arg6.IsWhole)
    (x0 : Vec F S512x64 .f32) (x1 : Vec F S64x32 .f32) (x2 : Vec F S1x32 .f32) (x3 : Vec F S32x5 .f32) (x4 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__mlp_kernel i arg1 harg1 arg2 harg2 arg3 harg3 arg4 harg4 arg5 harg5 arg6 harg6) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.PdatsK.lean ====
import proofs.«410316_j20426864460069_3_alg».proof.Proof.Half0K
import proofs.«410316_j20426864460069_3_alg».proof.Proof.Half1K
import proofs.«410316_j20426864460069_3_alg».proof.Proof.Half2K
import proofs.«410316_j20426864460069_3_alg».proof.Proof.Half3K
import proofs.«410316_j20426864460069_3_alg».proof.Proof.Half4K
import proofs.«410316_j20426864460069_3_alg».proof.Proof.Half5K
import proofs.«410316_j20426864460069_3_alg».proof.Proof.Half6K
import proofs.«410316_j20426864460069_3_alg».proof.Proof.Half7K
import proofs.«410316_j20426864460069_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev U3 (c : Dev nD) : Valuation τ sig (Elt F) := Gen.V3 m c

def U4 (c : Dev nD) : Valuation τ sig (Elt F) := Function.update (U3 m c) main_v30 ((dat0 (rd (U3 m)) c).arrAt 2 cfg0.N)
abbrev U5 (c : Dev nD) : Valuation τ sig (Elt F) := StableHlo.after hostOps1 (U4 m c)
def U6 (c : Dev nD) : Valuation τ sig (Elt F) := Function.update (U5 m c) main_v45 ((dat1 (rd (U5 m)) c).arrAt 2 cfg1.N)
def U7 (c : Dev nD) : Valuation τ sig (Elt F) := Function.update (U6 m c) main_v46 ((dat2 (rd (U6 m)) c).arrAt 2 cfg2.N)
abbrev U8 (c : Dev nD) : Valuation τ sig (Elt F) := StableHlo.after hostOps3 (U7 m c)
def U9 (c : Dev nD) : Valuation τ sig (Elt F) := Function.update (U8 m c) main_v61 ((dat3 (rd (U8 m)) c).arrAt 2 cfg3.N)
def U10 (c : Dev nD) : Valuation τ sig (Elt F) := Function.update (U9 m c) main_v62 ((dat4 (rd (U9 m)) c).arrAt 2 cfg4.N)
abbrev U11 (c : Dev nD) : Valuation τ sig (Elt F) := StableHlo.after hostOps5 (U10 m c)
def U12 (c : Dev nD) : Valuation τ sig (Elt F) := Function.update (U11 m c) main_v77 ((dat5 (rd (U11 m)) c).arrAt 2 cfg5.N)
abbrev U13 (c : Dev nD) : Valuation τ sig (Elt F) := StableHlo.after hostOps6 (U12 m c)
def U14 (c : Dev nD) : Valuation τ sig (Elt F) := Function.update (U13 m c) main_v79 ((dat6 (rd (U13 m)) c).arrAt 2 cfg6.N)
abbrev U15 (c : Dev nD) : Valuation τ sig (Elt F) := StableHlo.after hostOps7 (U14 m c)
def U16 (c : Dev nD) : Valuation τ sig (Elt F) := Function.update (U15 m c) main_v82 ((dat7 (rd (U15 m)) c).arrAt 5 cfg7.N)

def outs : Gen.Outs (F := F) := fun n r c =>
  match n with
  | 4 => U4 m c r
  | 6 => U6 m c r
  | 7 => U7 m c r
  | 9 => U9 m c r
  | 10 => U10 m c r
  | 12 => U12 m c r
  | 14 => U14 m c r
  | 16 => U16 m c r
  | _ => U3 m c r

theorem V4_eq (c : Dev nD) : Gen.V4 m (outs m) c = U4 m c := by
  show Function.update (Gen.V3 m c) main_v30 (U4 m c main_v30) = U4 m c
  unfold U4; rw [Function.update_self]
theorem V5_eq (c : Dev nD) : Gen.V5 m (outs m) c = U5 m c := by
  show StableHlo.after hostOps1 (Gen.V4 m (outs m) c) = _; rw [V4_eq]
theorem V6_eq (c : Dev nD) : Gen.V6 m (outs m) c = U6 m c := by
  show Function.update (Gen.V5 m (outs m) c) main_v45 (U6 m c main_v45) = U6 m c
  rw [V5_eq]; unfold U6; rw [Function.update_self]
theorem V7_eq (c : Dev nD) : Gen.V7 m (outs m) c = U7 m c := by
  show Function.update (Gen.V6 m (outs m) c) main_v46 (U7 m c main_v46) = U7 m c
  rw [V6_eq]; unfold U7; rw [Function.update_self]
theorem V8_eq (c : Dev nD) : Gen.V8 m (outs m) c = U8 m c := by
  show StableHlo.after hostOps3 (Gen.V7 m (outs m) c) = _; rw [V7_eq]
theorem V9_eq (c : Dev nD) : Gen.V9 m (outs m) c = U9 m c := by
  show Function.update (Gen.V8 m (outs m) c) main_v61 (U9 m c main_v61) = U9 m c
  rw [V8_eq]; unfold U9; rw [Function.update_self]
theorem V10_eq (c : Dev nD) : Gen.V10 m (outs m) c = U10 m c := by
  show Function.update (Gen.V9 m (outs m) c) main_v62 (U10 m c main_v62) = U10 m c
  rw [V9_eq]; unfold U10; rw [Function.update_self]
theorem V11_eq (c : Dev nD) : Gen.V11 m (outs m) c = U11 m c := by
  show StableHlo.after hostOps5 (Gen.V10 m (outs m) c) = _; rw [V10_eq]
theorem V12_eq (c : Dev nD) : Gen.V12 m (outs m) c = U12 m c := by
  show Function.update (Gen.V11 m (outs m) c) main_v77 (U12 m c main_v77) = U12 m c
  rw [V11_eq]; unfold U12; rw [Function.update_self]
theorem V13_eq (c : Dev nD) : Gen.V13 m (outs m) c = U13 m c := by
  show StableHlo.after hostOps6 (Gen.V12 m (outs m) c) = _; rw [V12_eq]
theorem V14_eq (c : Dev nD) : Gen.V14 m (outs m) c = U14 m c := by
  show Function.update (Gen.V13 m (outs m) c) main_v79 (U14 m c main_v79) = U14 m c
  rw [V13_eq]; unfold U14; rw [Function.update_self]
theorem V15_eq (c : Dev nD) : Gen.V15 m (outs m) c = U15 m c := by
  show StableHlo.after hostOps7 (Gen.V14 m (outs m) c) = _; rw [V14_eq]
theorem V16_eq (c : Dev nD) : Gen.V16 m (outs m) c = U16 m c := by
  show Function.update (Gen.V15 m (outs m) c) main_v82 (U16 m c main_v82) = U16 m c
  rw [V15_eq]; unfold U16; rw [Function.update_self]

def pdats : (p : Fin 8) → (c : Dev nD) → Dat τ (Elt F) Unit ℕ (UR sig nD τ) ℕ (cfgs p) c
  | ⟨0, _⟩ => fun c => dat0 (rd (U3 m)) c
  | ⟨1, _⟩ => fun c => dat1 (rd (U5 m)) c
  | ⟨2, _⟩ => fun c => dat2 (rd (U6 m)) c
  | ⟨3, _⟩ => fun c => dat3 (rd (U8 m)) c
  | ⟨4, _⟩ => fun c => dat4 (rd (U9 m)) c
  | ⟨5, _⟩ => fun c => dat5 (rd (U11 m)) c
  | ⟨6, _⟩ => fun c => dat6 (rd (U13 m)) c
  | ⟨7, _⟩ => fun c => dat7 (rd (U15 m)) c

end Cert.Kernel.Hand

end
-- ==== Proof.SegsK.lean ====
import proofs.«410316_j20426864460069_3_alg».proof.Proof.PdatsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem swapE (P Q : sProp 𝕄) : iprop(P ∗ Q) ⊢ iprop(Q ∗ P) := by
  iintro ⟨H1, H2⟩
  isplitl [H2]; · iexact H2
  iexact H1

-- a kernel region as a step between two thread states: its arrays leave the held buffers on entry and return on exit, only the output window's changed
set_option backward.isDefEq.respectTransparency.types false in
def regOf {p : Fin 8} (lf : Pipeline.LaunchFacts (nD := nD) (τ := τ) cfgs p) (Ui Uo : Dev nD → Valuation τ sig (Elt F))
    (hK : IsEmpty (Fin (pcfgs (F := F) p).pre.K))
    (hbody : ∀ c, Pipeline.BodyObligationLoose (pdats m p c) defs₀ 𝒱₀ () Set.univ)
    (howed : ∀ c t, (pdats m p c).owed t = 0) (hrec : ∀ c t, (pdats m p c).recorded t = Set.univ) (hq : ∀ c w, (pdats m p c).q w = fullShare)
    (hA : ∀ c w, (pdats m p c).A w = rd Ui c (Pipeline.arrRef (cfgs p).spec w))
    (wo : Fin (cfgs p).W) (hio : ∀ w, w ≠ wo → ((cfgs p).win w).isOut = false)
    (hUo : ∀ c, Uo c = Function.update (Ui c) (Proc.devRef .tc (Pipeline.arrRef (cfgs p).spec wo)) ((pdats m p c).arrAt wo (cfgs p).N))
    (hin : ∀ c, iprop((∃ r, prngReg c r) ∗ Pipeline.scopedRest (cfgs p).spec c) ⊢ (pdats m p c).Φ 0)
    (hout : ∀ c, (pdats m p c).Φ (Fin.last (cfgs p).N) ⊢ iprop((∃ r, prngReg c r) ∗ Pipeline.scopedRest (cfgs p).spec c)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Ui c) ∗ R c)
  post c := iprop(StableHlo.held (c : Thread nD τ) (Pipeline.ucRefs τ sig) (Uo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Ui c)
  hentry c := by
    haveI := hK
    rw [Pipeline.ownSems0_none]
    have hsplit := Pipeline.arrays_of_unscopedBufs (p := p) (pcfgs (F := F)) Gen.adm (pdats m) lf.win lf.arr_whole c
      ((pdats m p c).share_full (hq c)) (rd Ui c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H2 := (hout c) $$ H
    icases H2 with ⟨Hp, Hr⟩
    isplitl [Hp]; · iexact Hp
    isplitr; · iempintro
    iexact Hr
  hexit c := by
    have hF : ∀ w, (pdats m p c).arrAt w (cfgs p).N = rd Uo c (Pipeline.arrRef (cfgs p).spec w) := fun w => by
      refine Eq.trans ?_ (congrFun (hUo c) _).symm
      by_cases h : w = wo
      · subst h; rw [Function.update_self]
      · exact (((pdats m p c).arrAt_in w (hio w h) _).trans (hA c w)).trans
          (Function.update_of_ne (StableHlo.devRef_ne_of_ne fun e => h (lf.win.arr_inj e)) _ _).symm
    have hrest : ∀ b, b ∉ Finset.univ.image (Pipeline.arrRef (cfgs p).spec) → rd Uo c b = rd Ui c b := fun b hb =>
      (congrFun (hUo c) _).trans (Function.update_of_ne (StableHlo.devRef_ne_of_ne fun e =>
        hb (Finset.mem_image.mpr ⟨wo, Finset.mem_univ _, e.symm⟩)) _ _)
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (rd Ui c) (rd Uo c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) Gen.adm (pdats m) () defs₀ 𝒱₀ L lv 0 :=
  regOf m launch0 (U3 m) (U4 m) (inferInstanceAs (IsEmpty (Fin 0))) (fun c => (body_obligation0 (rd (U3 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg1 : Pipeline.RegionSeg (pcfgs (F := F)) Gen.adm (pdats m) () defs₀ 𝒱₀ L lv 1 :=
  regOf m launch1 (U5 m) (U6 m) (inferInstanceAs (IsEmpty (Fin 0))) (fun c => (body_obligation1 (rd (U5 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg2 : Pipeline.RegionSeg (pcfgs (F := F)) Gen.adm (pdats m) () defs₀ 𝒱₀ L lv 2 :=
  regOf m launch2 (U6 m) (U7 m) (inferInstanceAs (IsEmpty (Fin 0))) (fun c => (body_obligation2 (rd (U6 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg3 : Pipeline.RegionSeg (pcfgs (F := F)) Gen.adm (pdats m) () defs₀ 𝒱₀ L lv 3 :=
  regOf m launch3 (U8 m) (U9 m) (inferInstanceAs (IsEmpty (Fin 0))) (fun c => (body_obligation3 (rd (U8 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg4 : Pipeline.RegionSeg (pcfgs (F := F)) Gen.adm (pdats m) () defs₀ 𝒱₀ L lv 4 :=
  regOf m launch4 (U9 m) (U10 m) (inferInstanceAs (IsEmpty (Fin 0))) (fun c => (body_obligation4 (rd (U9 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg5 : Pipeline.RegionSeg (pcfgs (F := F)) Gen.adm (pdats m) () defs₀ 𝒱₀ L lv 5 :=
  regOf m launch5 (U11 m) (U12 m) (inferInstanceAs (IsEmpty (Fin 0))) (fun c => (body_obligation5 (rd (U11 m)) c).loose)
    (fun _ _ => rfl) (fun _ _ => rfl) (fun _ _ => rfl) (fun _ _ => rfl) 2 (by decide) (fun _ => rfl) (fun _ => swapE _ _) (fun _ => swapE _ _)

set_option backward.isDefEq.respectTransparency.types false in
def reg6 : Pipeline.RegionSeg (pcfgs (F := F)) Gen.adm (pdats m) () defs₀ 𝒱₀ L lv 6 :=
  regOf m launch6 (U13 m) (U14 m) (inferInstanceAs (IsEmpty (Fin 0))) (fun c => (body_obligation6 (rd (U13 m)) c).loose)
    (fun _ _ => rfl) (fun _ _ => rfl) (fun _ _ => rfl) (fun _ _ => rfl) 2 (by decide) (fun _ => rfl) (Φ6_in (rd (U13 m))) (Φ6_out (rd (U13 m)))

set_option backward.isDefEq.respectTransparency.types false in
def reg7 : Pipeline.RegionSeg (pcfgs (F := F)) Gen.adm (pdats m) () defs₀ 𝒱₀ L lv 7 :=
  regOf m launch7 (U15 m) (U16 m) (inferInstanceAs (IsEmpty (Fin 0))) (fun c => (body_obligation7 (rd (U15 m)) c).loose)
    (fun _ _ => rfl) (fun _ _ => rfl) (fun _ _ => rfl) (fun _ _ => rfl) 5 (by decide) (fun _ => rfl) (fun _ => swapE _ _) (fun _ => swapE _ _)

end Cert.Kernel.Hand

end
-- ==== Proof.RunAllK.lean ====
import proofs.«410316_j20426864460069_3_alg».proof.Proof.SegsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E : Fin 9 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hpre0 (c : Dev nD) : iprop(StableHlo.held (c : Thread nD τ) (Pipeline.ucRefs τ sig) (Gen.V3 m c) ∗ E (F := F) 0 c) ⊢ (reg0 m).pre c := .rfl
theorem hpost0 (c : Dev nD) : (reg0 m).post c ⊢ iprop(StableHlo.held (c : Thread nD τ) (Pipeline.ucRefs τ sig) (Gen.V4 m (outs m) c) ∗ E (F := F) 1 c) := by rw [V4_eq]; exact .rfl
theorem hpre1 (c : Dev nD) : iprop(StableHlo.held (c : Thread nD τ) (Pipeline.ucRefs τ sig) (Gen.V5 m (outs m) c) ∗ E (F := F) 1 c) ⊢ (reg1 m).pre c := by rw [V5_eq]; exact .rfl
theorem hpost1 (c : Dev nD) : (reg1 m).post c ⊢ iprop(StableHlo.held (c : Thread nD τ) (Pipeline.ucRefs τ sig) (Gen.V6 m (outs m) c) ∗ E (F := F) 2 c) := by rw [V6_eq]; exact .rfl
theorem hpre2 (c : Dev nD) : iprop(StableHlo.held (c : Thread nD τ) (Pipeline.ucRefs τ sig) (Gen.V6 m (outs m) c) ∗ E (F := F) 2 c) ⊢ (reg2 m).pre c := by rw [V6_eq]; exact .rfl
theorem hpost2 (c : Dev nD) : (reg2 m).post c ⊢ iprop(StableHlo.held (c : Thread nD τ) (Pipeline.ucRefs τ sig) (Gen.V7 m (outs m) c) ∗ E (F := F) 3 c) := by rw [V7_eq]; exact .rfl
theorem hpre3 (c : Dev nD) : iprop(StableHlo.held (c : Thread nD τ) (Pipeline.ucRefs τ sig) (Gen.V8 m (outs m) c) ∗ E (F := F) 3 c) ⊢ (reg3 m).pre c := by rw [V8_eq]; exact .rfl
theorem hpost3 (c : Dev nD) : (reg3 m).post c ⊢ iprop(StableHlo.held (c : Thread nD τ) (Pipeline.ucRefs τ sig) (Gen.V9 m (outs m) c) ∗ E (F := F) 4 c) := by rw [V9_eq]; exact .rfl
theorem hpre4 (c : Dev nD) : iprop(StableHlo.held (c : Thread nD τ) (Pipeline.ucRefs τ sig) (Gen.V9 m (outs m) c) ∗ E (F := F) 4 c) ⊢ (reg4 m).pre c := by rw [V9_eq]; exact .rfl
theorem hpost4 (c : Dev nD) : (reg4 m).post c ⊢ iprop(StableHlo.held (c : Thread nD τ) (Pipeline.ucRefs τ sig) (Gen.V10 m (outs m) c) ∗ E (F := F) 5 c) := by rw [V10_eq]; exact .rfl
theorem hpre5 (c : Dev nD) : iprop(StableHlo.held (c : Thread nD τ) (Pipeline.ucRefs τ sig) (Gen.V11 m (outs m) c) ∗ E (F := F) 5 c) ⊢ (reg5 m).pre c := by rw [V11_eq]; exact .rfl
theorem hpost5 (c : Dev nD) : (reg5 m).post c ⊢ iprop(StableHlo.held (c : Thread nD τ) (Pipeline.ucRefs τ sig) (Gen.V12 m (outs m) c) ∗ E (F := F) 6 c) := by rw [V12_eq]; exact .rfl
theorem hpre6 (c : Dev nD) : iprop(StableHlo.held (c : Thread nD τ) (Pipeline.ucRefs τ sig) (Gen.V13 m (outs m) c) ∗ E (F := F) 6 c) ⊢ (reg6 m).pre c := by rw [V13_eq]; exact .rfl
theorem hpost6 (c : Dev nD) : (reg6 m).post c ⊢ iprop(StableHlo.held (c : Thread nD τ) (Pipeline.ucRefs τ sig) (Gen.V14 m (outs m) c) ∗ E (F := F) 7 c) := by rw [V14_eq]; exact .rfl
theorem hpre7 (c : Dev nD) : iprop(StableHlo.held (c : Thread nD τ) (Pipeline.ucRefs τ sig) (Gen.V15 m (outs m) c) ∗ E (F := F) 7 c) ⊢ (reg7 m).pre c := by rw [V15_eq]; exact .rfl
theorem hpost7 (c : Dev nD) : (reg7 m).post c ⊢ iprop(StableHlo.held (c : Thread nD τ) (Pipeline.ucRefs τ sig) (Gen.V16 m (outs m) c) ∗ E (F := F) 8 c) := by rw [V16_eq]; exact .rfl
theorem hE8 (c : Dev nD) : E (F := F) 8 c ⊢ (iprop(∃ W, owes (c : Thread nD τ) (0 : CellTallies nD τ sig Unit) W) : sProp 𝕄) := by
  iintro ⟨-, H⟩; iexact H

-- the sixteen items in order: each item's exit state is the next item's entry state
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V16 m (outs m) c b) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m) (reg3 m) (reg4 m) (reg5 m) (reg6 m) (reg7 m))
    (fun c Q => by
      rewrite [main_chain c, Seg.run_eq_chain,
        show (Gen.segs m (outs m) 𝒱₀ L lv (E (F := F)) () (pdats m) (reg0 m) (reg1 m) (reg2 m) (reg3 m) (reg4 m) (reg5 m) (reg6 m) (reg7 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [Gen.segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V16 m (outs m) c))
    (hch := fun c => ⟨.rfl, .rfl, .rfl, hpre0 m c, hpost0 m c, hpre1 m c, (hpost1 m c).trans (hpre2 m c), hpost2 m c, hpre3 m c, (hpost3 m c).trans (hpre4 m c), hpost4 m c, hpre5 m c, hpost5 m c, hpre6 m c, hpost6 m c, hpre7 m c, (hpost7 m c).trans (sep_mono .rfl (hE8 c))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V16 m (outs m) c b)
    (hfin := fun c s' => by
      iintro ⟨Hh, HSI⟩
      unfold StableHlo.held
      imodintro
      iapply (pointsTo_read_all (Pipeline.ucRefs τ sig) (fun b => (((c : Thread nD τ)).1, b)) (Gen.V16 m (outs m) c) s')
      isplitl [Hh] <;> iassumption)
    (hQ := fun _ h => h)

theorem run_value : θ_run defs (onTc (τ := τ) (main (F := F))) ⟨m, fun _ => 0, ρ⟩ (fun r => ∀ c : Dev nD,
      r.2.mem ((c.tc : Thread nD τ).loc main_v82) = (dat7 (rd (U15 m)) c).arrAt 5 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v82 (by decide))).trans (by rw [V16_eq]; unfold U16; rw [Function.update_self]),
    (h c _ (mem_uc main_arg0 (by decide))).trans (Gen.V16_main_arg0 m (outs m) c),
    (h c _ (mem_uc main_arg1 (by decide))).trans (Gen.V16_main_arg1 m (outs m) c),
    (h c _ (mem_uc main_arg2 (by decide))).trans (Gen.V16_main_arg2 m (outs m) c),
    (h c _ (mem_uc main_arg3 (by decide))).trans (Gen.V16_main_arg3 m (outs m) c),
    (h c _ (mem_uc main_arg4 (by decide))).trans (Gen.V16_main_arg4 m (outs m) c),
    (h c _ (mem_uc main_arg5 (by decide))).trans (Gen.V16_main_arg5 m (outs m) c),
    (h c _ (mem_uc main_arg6 (by decide))).trans (Gen.V16_main_arg6 m (outs m) c),
    (h c _ (mem_uc main_arg7 (by decide))).trans (Gen.V16_main_arg7 m (outs m) c),
    (h c _ (mem_uc main_arg8 (by decide))).trans (Gen.V16_main_arg8 m (outs m) c),
    (h c _ (mem_uc main_arg9 (by decide))).trans (Gen.V16_main_arg9 m (outs m) c),
    (h c _ (mem_uc main_arg10 (by decide))).trans (Gen.V16_main_arg10 m (outs m) c),
    (h c _ (mem_uc main_arg11 (by decide))).trans (Gen.V16_main_arg11 m (outs m) c),
    (h c _ (mem_uc main_arg12 (by decide))).trans (Gen.V16_main_arg12 m (outs m) c)⟩) (run_all m ρ)

end Cert.Kernel.Hand

end
-- ==== Proof.Spec.lean ====
import proofs.«410316_j20426864460069_3_alg».proof.ReferenceIdeal
import proofs.«410316_j20426864460069_3_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

def sIdx (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

def dIdx (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

def sNorm (ei : (⟨S2x3200000, .i32⟩ : BufTy).Contents (Elt F)) : (⟨S3300000, .i32⟩ : BufTy).Contents (Elt F) :=
  select (cmpi .slt (sIdx ei) (broadcastInDim S3300000 ![] bcast_S_S3300000 (constantI S_ 32 0#32))) (addi (sIdx ei) (broadcastInDim S3300000 ![] bcast_S_S3300000 (constantI S_ 32 100000#32))) (sIdx ei)

def dNorm (ei : (⟨S2x3200000, .i32⟩ : BufTy).Contents (Elt F)) : (⟨S3300000, .i32⟩ : BufTy).Contents (Elt F) :=
  select (cmpi .slt (dIdx ei) (broadcastInDim S3300000 ![] bcast_S_S3300000 (constantI S_ 32 0#32))) (addi (dIdx ei) (broadcastInDim S3300000 ![] bcast_S_S3300000 (constantI S_ 32 100000#32))) (dIdx ei)

def deg (ei : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dIdx ei)) (broadcastInDim S3300000 ![] bcast_S_S3300000 (constant S_ .f32 0x3F800000#32))

def dinv (ei : (⟨S2x3200000, .i32⟩ : BufTy).Contents (Elt F)) : (⟨S100000, .f32⟩ : BufTy).Contents (Elt F) :=
  select (cmpf .ogt (deg ei) (broadcastInDim S100000 ![] bcast_S_S100000 (constant S_ .f32 0x00000000#32))) (Host.rsqrt (deg ei)) (broadcastInDim S100000 ![] bcast_S_S100000 (id (constant S_ .f32 0x00000000#32)))

def nrm (ei : (⟨S2x3200000, .i32⟩ : BufTy).Contents (Elt F)) : (⟨S3300000, .f32⟩ : BufTy).Contents (Elt F) :=
  mulf (Host.gather gather_S100000_S3300000x1_S3300000_n_0_n_n_0_1_1 (dinv ei) (broadcastInDim S3300000x1 ![0] bcast_S3300000_S3300000x1_0 (sNorm ei))) (Host.gather gather_S100000_S3300000x1_S3300000_n_0_n_n_0_1_1 (dinv ei) (broadcastInDim S3300000x1 ![0] bcast_S3300000_S3300000x1_0 (dNorm ei)))

def agg32 (h : (⟨S100000x32, .f32⟩ : BufTy).Contents (Elt F)) (ei : (⟨S2x3200000, .i32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 (dIdx ei)) (mulf (Host.gather gather_S100000x32_S3300000x1_S3300000x32_1_0_n_n_0_1_132 h (broadcastInDim S3300000x1 ![0] bcast_S3300000_S3300000x1_0 (sNorm ei))) (broadcastInDim S3300000x32 ![0, 1] bcast_S3300000x1_S3300000x32_0_1 (broadcastInDim S3300000x1 ![0] bcast_S3300000_S3300000x1_0 (nrm ei))))

def agg64 (h : (⟨S100000x64, .f32⟩ : BufTy).Contents (Elt F)) (ei : (⟨S2x3200000, .i32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dIdx ei)) (mulf (Host.gather gather_S100000x64_S3300000x1_S3300000x64_1_0_n_n_0_1_164 h (broadcastInDim S3300000x1 ![0] bcast_S3300000_S3300000x1_0 (sNorm ei))) (broadcastInDim S3300000x64 ![0, 1] bcast_S3300000x1_S3300000x64_0_1 (broadcastInDim S3300000x1 ![0] bcast_S3300000_S3300000x1_0 (nrm ei))))
def lin1 (x : (⟨S100000x3, .f32⟩ : BufTy).Contents (Elt F)) (W : (⟨S3x32, .f32⟩ : BufTy).Contents (Elt F)) : (⟨S100000x32, .f32⟩ : BufTy).Contents (Elt F) :=
  Host.dotGeneral dot_S100000x3_S3x32_S100000x32_1_0_0_1_n_n none x W
def lin2 (x : (⟨S100000x32, .f32⟩ : BufTy).Contents (Elt F)) (W : (⟨S32x64, .f32⟩ : BufTy).Contents (Elt F)) : (⟨S100000x64, .f32⟩ : BufTy).Contents (Elt F) :=
  Host.dotGeneral dot_S100000x32_S32x64_S100000x64_1_0_0_1_n_n none x W
def lin3 (x : (⟨S100000x64, .f32⟩ : BufTy).Contents (Elt F)) (W : (⟨S64x64, .f32⟩ : BufTy).Contents (Elt F)) : (⟨S100000x64, .f32⟩ : BufTy).Contents (Elt F) :=
  Host.dotGeneral dot_S100000x64_S64x64_S100000x64_1_0_0_1_n_n none x W

def biasRelu32 (a : (⟨S100000x32, .f32⟩ : BufTy).Contents (Elt F)) (b : (⟨S32, .f32⟩ : BufTy).Contents (Elt F)) : (⟨S100000x32, .f32⟩ : BufTy).Contents (Elt F) :=
  maximumf (addf a (broadcastInDim S100000x32 ![0, 1] bcast_S1x32_S100000x32_0_1 (broadcastInDim S1x32 ![1] bcast_S32_S1x32_1 b))) (broadcastInDim S100000x32 ![] bcast_S_S100000x32 (constant S_ .f32 0x00000000#32))
def biasRelu64 (a : (⟨S100000x64, .f32⟩ : BufTy).Contents (Elt F)) (b : (⟨S64, .f32⟩ : BufTy).Contents (Elt F)) : (⟨S100000x64, .f32⟩ : BufTy).Contents (Elt F) :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))
def bias64 (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

def pool (bt : (⟨S100000, .i32⟩ : BufTy).Contents (Elt F)) (h : (⟨S100000x64, .f32⟩ : BufTy).Contents (Elt F)) : (⟨S512x64, .f32⟩ : BufTy).Contents (Elt F) :=
  Host.scatterAdd scatter_S512x64_S100000x1_S100000x64_1_0_0_1 (broadcastInDim S512x64 ![] bcast_S_S512x64 (constant S_ .f32 0x00000000#32)) (broadcastInDim S100000x1 ![0] bcast_S100000_S100000x1_0 bt) h
def logits (p : (⟨S512x64, .f32⟩ : BufTy).Contents (Elt F)) (W1 : (⟨S64x32, .f32⟩ : BufTy).Contents (Elt F)) (b1 : (⟨S32, .f32⟩ : BufTy).Contents (Elt F)) (W2 : (⟨S32x5, .f32⟩ : BufTy).Contents (Elt F)) (b2 : (⟨S5, .f32⟩ : BufTy).Contents (Elt F)) : (⟨S512x5, .f32⟩ : BufTy).Contents (Elt F) :=
  addf (Host.dotGeneral dot_S512x32_S32x5_S512x5_1_0_0_1_n_n none (maximumf (addf (Host.dotGeneral dot_S512x64_S64x32_S512x32_1_0_0_1_n_n none p W1) (broadcastInDim S512x32 ![0, 1] bcast_S1x32_S512x32_0_1 (broadcastInDim S1x32 ![1] bcast_S32_S1x32_1 b1))) (broadcastInDim S512x32 ![] bcast_S_S512x32 (constant S_ .f32 0x00000000#32))) W2) (broadcastInDim S512x5 ![0, 1] bcast_S1x5_S512x5_0_1 (broadcastInDim S1x5 ![1] bcast_S5_S1x5_1 b2))

def colMax (z : (⟨S512x5, .f32⟩ : BufTy).Contents (Elt F)) : (⟨S512x5, .f32⟩ : BufTy).Contents (Elt F) :=
  broadcastInDim S512x5 ![0, 1] bcast_S1x5_S512x5_0_1 (broadcastInDim S1x5 ![1] bcast_S5_S1x5_1 (maximumf (broadcastInDim S5 ![] bcast_S_S5 (constant S_ .f32 0xFF800000#32)) (Host.reduce FloatOps.maximumf z (constant S_ .f32 0xFF800000#32) reducesTo_S512x5_S5_d0 h_S_)))

def logSoftmax0 (z : (⟨S512x5, .f32⟩ : BufTy).Contents (Elt F)) : (⟨S512x5, .f32⟩ : BufTy).Contents (Elt F) :=
  subf (subf z (colMax z)) (broadcastInDim S512x5 ![0, 1] bcast_S1x5_S512x5_0_1 (Host.log (broadcastInDim S1x5 ![1] bcast_S5_S1x5_1 (Host.reduceAdd (Host.exp (subf z (colMax z))) (constant S_ .f32 0x00000000#32) reducesTo_S512x5_S5_d0 h_S_))))

def refTerm (a0 : (⟨S100000x3, .f32⟩ : BufTy).Contents (Elt F)) (a1 : (⟨S2x3200000, .i32⟩ : BufTy).Contents (Elt F)) (a2 : (⟨S100000, .i32⟩ : BufTy).Contents (Elt F)) (a3 : (⟨S3x32, .f32⟩ : BufTy).Contents (Elt F)) (a4 : (⟨S32, .f32⟩ : BufTy).Contents (Elt F)) (a5 : (⟨S32x64, .f32⟩ : BufTy).Contents (Elt F)) (a6 : (⟨S64, .f32⟩ : BufTy).Contents (Elt F)) (a7 : (⟨S64x64, .f32⟩ : BufTy).Contents (Elt F)) (a8 : (⟨S64, .f32⟩ : BufTy).Contents (Elt F)) (a9 : (⟨S64x32, .f32⟩ : BufTy).Contents (Elt F)) (a10 : (⟨S32, .f32⟩ : BufTy).Contents (Elt F)) (a11 : (⟨S32x5, .f32⟩ : BufTy).Contents (Elt F)) (a12 : (⟨S5, .f32⟩ : BufTy).Contents (Elt F)) : (⟨S512x5, .f32⟩ : BufTy).Contents (Elt F) :=
  logSoftmax0 (logits (pool a2 (bias64 (agg64 (lin3 (biasRelu64 (agg64 (lin2 (biasRelu32 (agg32 (lin1 a0 a3) a1) a4) a5) a1) a6) a7) a1) a8)) a9 a10 a11 a12)

end Cert.ReferenceIdeal.Spec

end
-- ==== Proof.Glue.lean ====
import proofs.«410316_j20426864460069_3_alg».proof.Proof.Pdats
import proofs.«410316_j20426864460069_3_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

variable {F : FTy → Type} [FloatOps F]

variable (m : (ℓ : Loc nD τ sig) → Buf (Elt F) ℓ)

theorem U3_of (c : Dev nD) (r : Ref sig .tc) (h0 : r ∉ hostOps0_W) (h1 : r ∉ hostOps0_1_W) (h2 : r ∉ hostOps0_2_W) :
    U3 m c r = m ((c.tc : Thread nD τ).loc r) :=
  (Gen.V3_of m c r h2).trans <| (Gen.V2_of m c r h1).trans <| (Gen.V1_of m c r h0).trans rfl
theorem U4_of (c : Dev nD) (r : Ref sig .tc) (h : r ∉ ([main_v30] : List (Ref sig .tc))) : U4 m c r = U3 m c r := by
  unfold U4
  exact Function.update_of_ne (StableHlo.devRef_ne_of_ne (List.ne_of_not_mem_cons h)) _ _
theorem U5_of (c : Dev nD) (r : Ref sig .tc) (h : r ∉ hostOps1_W) : U5 m c r = U4 m c r :=
  StableHlo.after_of_writes_sub hostOps1 _ hostOps1_writes h
theorem U6_of (c : Dev nD) (r : Ref sig .tc) (h : r ∉ ([main_v45] : List (Ref sig .tc))) : U6 m c r = U5 m c r := by
  unfold U6
  exact Function.update_of_ne (StableHlo.devRef_ne_of_ne (List.ne_of_not_mem_cons h)) _ _
theorem U7_of (c : Dev nD) (r : Ref sig .tc) (h : r ∉ ([main_v46] : List (Ref sig .tc))) : U7 m c r = U6 m c r := by
  unfold U7
  exact Function.update_of_ne (StableHlo.devRef_ne_of_ne (List.ne_of_not_mem_cons h)) _ _
theorem U8_of (c : Dev nD) (r : Ref sig .tc) (h : r ∉ hostOps3_W) : U8 m c r = U7 m c r :=
  StableHlo.after_of_writes_sub hostOps3 _ hostOps3_writes h
theorem U9_of (c : Dev nD) (r : Ref sig .tc) (h : r ∉ ([main_v61] : List (Ref sig .tc))) : U9 m c r = U8 m c r := by
  unfold U9
  exact Function.update_of_ne (StableHlo.devRef_ne_of_ne (List.ne_of_not_mem_cons h)) _ _
theorem U10_of (c : Dev nD) (r : Ref sig .tc) (h : r ∉ ([main_v62] : List (Ref sig .tc))) : U10 m c r = U9 m c r := by
  unfold U10
  exact Function.update_of_ne (StableHlo.devRef_ne_of_ne (List.ne_of_not_mem_cons h)) _ _
theorem U11_of (c : Dev nD) (r : Ref sig .tc) (h : r ∉ hostOps5_W) : U11 m c r = U10 m c r :=
  StableHlo.after_of_writes_sub hostOps5 _ hostOps5_writes h
theorem U12_of (c : Dev nD) (r : Ref sig .tc) (h : r ∉ ([main_v77] : List (Ref sig .tc))) : U12 m c r = U11 m c r := by
  unfold U12
  exact Function.update_of_ne (StableHlo.devRef_ne_of_ne (List.ne_of_not_mem_cons h)) _ _
theorem U13_of (c : Dev nD) (r : Ref sig .tc) (h : r ∉ hostOps6_W) : U13 m c r = U12 m c r :=
  StableHlo.after_of_writes_sub hostOps6 _ hostOps6_writes h
theorem U14_of (c : Dev nD) (r : Ref sig .tc) (h : r ∉ ([main_v79] : List (Ref sig .tc))) : U14 m c r = U13 m c r := by
  unfold U14
  exact Function.update_of_ne (StableHlo.devRef_ne_of_ne (List.ne_of_not_mem_cons h)) _ _
theorem U15_of (c : Dev nD) (r : Ref sig .tc) (h : r ∉ hostOps7_W) : U15 m c r = U14 m c r :=
  StableHlo.after_of_writes_sub hostOps7 _ hostOps7_writes h
theorem U16_of (c : Dev nD) (r : Ref sig .tc) (h : r ∉ ([main_v82] : List (Ref sig .tc))) : U16 m c r = U15 m c r := by
  unfold U16
  exact Function.update_of_ne (StableHlo.devRef_ne_of_ne (List.ne_of_not_mem_cons h)) _ _

abbrev mainArgs : List (Ref sig .tc) := [main_arg0, main_arg1, main_arg2, main_arg3, main_arg4, main_arg5, main_arg6, main_arg7, main_arg8, main_arg9, main_arg10, main_arg11, main_arg12]

theorem U3_args (c : Dev nD) (r : Ref sig .tc) (h : r ∈ mainArgs) : U3 m c r = m ((c.tc : Thread nD τ).loc r) :=
  U3_of m c r ((by decide : ∀ r ∈ mainArgs, r ∉ hostOps0_W) r h) ((by decide : ∀ r ∈ mainArgs, r ∉ hostOps0_1_W) r h)
    ((by decide : ∀ r ∈ mainArgs, r ∉ hostOps0_2_W) r h)
theorem U4_args (c : Dev nD) (r : Ref sig .tc) (h : r ∈ mainArgs) : U4 m c r = m ((c.tc : Thread nD τ).loc r) :=
  (U4_of m c r ((by decide : ∀ r ∈ mainArgs, r ∉ ([main_v30] : List (Ref sig .tc))) r h)).trans (U3_args m c r h)
theorem U5_args (c : Dev nD) (r : Ref sig .tc) (h : r ∈ mainArgs) : U5 m c r = m ((c.tc : Thread nD τ).loc r) :=
  (U5_of m c r ((by decide : ∀ r ∈ mainArgs, r ∉ hostOps1_W) r h)).trans (U4_args m c r h)
theorem U6_args (c : Dev nD) (r : Ref sig .tc) (h : r ∈ mainArgs) : U6 m c r = m ((c.tc : Thread nD τ).loc r) :=
  (U6_of m c r ((by decide : ∀ r ∈ mainArgs, r ∉ ([main_v45] : List (Ref sig .tc))) r h)).trans (U5_args m c r h)
theorem U7_args (c : Dev nD) (r : Ref sig .tc) (h : r ∈ mainArgs) : U7 m c r = m ((c.tc : Thread nD τ).loc r) :=
  (U7_of m c r ((by decide : ∀ r ∈ mainArgs, r ∉ ([main_v46] : List (Ref sig .tc))) r h)).trans (U6_args m c r h)
theorem U8_args (c : Dev nD) (r : Ref sig .tc) (h : r ∈ mainArgs) : U8 m c r = m ((c.tc : Thread nD τ).loc r) :=
  (U8_of m c r ((by decide : ∀ r ∈ mainArgs, r ∉ hostOps3_W) r h)).trans (U7_args m c r h)
theorem U9_args (c : Dev nD) (r : Ref sig .tc) (h : r ∈ mainArgs) : U9 m c r = m ((c.tc : Thread nD τ).loc r) :=
  (U9_of m c r ((by decide : ∀ r ∈ mainArgs, r ∉ ([main_v61] : List (Ref sig .tc))) r h)).trans (U8_args m c r h)
theorem U10_args (c : Dev nD) (r : Ref sig .tc) (h : r ∈ mainArgs) : U10 m c r = m ((c.tc : Thread nD τ).loc r) :=
  (U10_of m c r ((by decide : ∀ r ∈ mainArgs, r ∉ ([main_v62] : List (Ref sig .tc))) r h)).trans (U9_args m c r h)
theorem U11_args (c : Dev nD) (r : Ref sig .tc) (h : r ∈ mainArgs) : U11 m c r = m ((c.tc : Thread nD τ).loc r) :=
  (U11_of m c r ((by decide : ∀ r ∈ mainArgs, r ∉ hostOps5_W) r h)).trans (U10_args m c r h)
theorem U12_args (c : Dev nD) (r : Ref sig .tc) (h : r ∈ mainArgs) : U12 m c r = m ((c.tc : Thread nD τ).loc r) :=
  (U12_of m c r ((by decide : ∀ r ∈ mainArgs, r ∉ ([main_v77] : List (Ref sig .tc))) r h)).trans (U11_args m c r h)
theorem U13_args (c : Dev nD) (r : Ref sig .tc) (h : r ∈ mainArgs) : U13 m c r = m ((c.tc : Thread nD τ).loc r) :=
  (U13_of m c r ((by decide : ∀ r ∈ mainArgs, r ∉ hostOps6_W) r h)).trans (U12_args m c r h)
theorem U14_args (c : Dev nD) (r : Ref sig .tc) (h : r ∈ mainArgs) : U14 m c r = m ((c.tc : Thread nD τ).loc r) :=
  (U14_of m c r ((by decide : ∀ r ∈ mainArgs, r ∉ ([main_v79] : List (Ref sig .tc))) r h)).trans (U13_args m c r h)
theorem U15_args (c : Dev nD) (r : Ref sig .tc) (h : r ∈ mainArgs) : U15 m c r = m ((c.tc : Thread nD τ).loc r) :=
  (U15_of m c r ((by decide : ∀ r ∈ mainArgs, r ∉ hostOps7_W) r h)).trans (U14_args m c r h)

theorem U_arg3_0 (c : Dev nD) : U3 m c main_arg0 = m ((c.tc : Thread nD τ).loc main_arg0) := U3_args m c main_arg0 (by decide)
theorem U_arg3_3 (c : Dev nD) : U3 m c main_arg3 = m ((c.tc : Thread nD τ).loc main_arg3) := U3_args m c main_arg3 (by decide)
theorem U_arg4_4 (c : Dev nD) : U4 m c main_arg4 = m ((c.tc : Thread nD τ).loc main_arg4) := U4_args m c main_arg4 (by decide)
theorem U_arg6_5 (c : Dev nD) : U6 m c main_arg5 = m ((c.tc : Thread nD τ).loc main_arg5) := U6_args m c main_arg5 (by decide)
theorem U_arg7_6 (c : Dev nD) : U7 m c main_arg6 = m ((c.tc : Thread nD τ).loc main_arg6) := U7_args m c main_arg6 (by decide)
theorem U_arg9_7 (c : Dev nD) : U9 m c main_arg7 = m ((c.tc : Thread nD τ).loc main_arg7) := U9_args m c main_arg7 (by decide)
theorem U_arg10_8 (c : Dev nD) : U10 m c main_arg8 = m ((c.tc : Thread nD τ).loc main_arg8) := U10_args m c main_arg8 (by decide)
theorem U_arg12_2 (c : Dev nD) : U12 m c main_arg2 = m ((c.tc : Thread nD τ).loc main_arg2) := U12_args m c main_arg2 (by decide)
theorem U_arg14_10 (c : Dev nD) : U14 m c main_arg10 = m ((c.tc : Thread nD τ).loc main_arg10) := U14_args m c main_arg10 (by decide)
theorem U_arg14_12 (c : Dev nD) : U14 m c main_arg12 = m ((c.tc : Thread nD τ).loc main_arg12) := U14_args m c main_arg12 (by decide)
theorem U_arg15_9 (c : Dev nD) : U15 m c main_arg9 = m ((c.tc : Thread nD τ).loc main_arg9) := U15_args m c main_arg9 (by decide)
theorem U_arg15_11 (c : Dev nD) : U15 m c main_arg11 = m ((c.tc : Thread nD τ).loc main_arg11) := U15_args m c main_arg11 (by decide)

theorem U3_v5 (c : Dev nD) : U3 m c main_v5 = Cert.ReferenceIdeal.Spec.sIdx (m ((c.tc : Thread nD τ).loc main_arg1)) := by
  refine (Gen.V3_of m c main_v5 (by decide)).trans <| (Gen.V2_of m c main_v5 (by decide)).trans ?_
  show StableHlo.after hostOps0 (Gen.V0 m c) (Proc.devRef .tc main_v5) = _
  after_results
  rfl

theorem U3_v6 (c : Dev nD) : U3 m c main_v6 = Cert.ReferenceIdeal.Spec.dIdx (m ((c.tc : Thread nD τ).loc main_arg1)) := by
  refine (Gen.V3_of m c main_v6 (by decide)).trans <| (Gen.V2_of m c main_v6 (by decide)).trans ?_
  show StableHlo.after hostOps0 (Gen.V0 m c) (Proc.devRef .tc main_v6) = _
  after_results
  rfl

theorem U3_v29 (c : Dev nD) : U3 m c main_v29 = Cert.ReferenceIdeal.Spec.nrm (m ((c.tc : Thread nD τ).loc main_arg1)) := by
  show StableHlo.after hostOps0_2 (StableHlo.after hostOps0_1 (StableHlo.after hostOps0 (Gen.V0 m c))) (Proc.devRef .tc main_v29) = _
  after_results_simp <;> (try simp only [TRef.ofBuf, TRef.toBuf, cast_eq]) <;> rfl

theorem U_v5_4 (c : Dev nD) : U4 m c main_v5 = U3 m c main_v5 :=
  (U4_of m c main_v5 (by decide)).trans <| rfl
theorem U_v5_7 (c : Dev nD) : U7 m c main_v5 = U3 m c main_v5 :=
  (U7_of m c main_v5 (by decide)).trans <| (U6_of m c main_v5 (by decide)).trans <| (U5_of m c main_v5 (by decide)).trans <| (U4_of m c main_v5 (by decide)).trans <| rfl
theorem U_v5_10 (c : Dev nD) : U10 m c main_v5 = U3 m c main_v5 :=
  (U10_of m c main_v5 (by decide)).trans <| (U9_of m c main_v5 (by decide)).trans <| (U8_of m c main_v5 (by decide)).trans <| (U7_of m c main_v5 (by decide)).trans <| (U6_of m c main_v5 (by decide)).trans <| (U5_of m c main_v5 (by decide)).trans <| (U4_of m c main_v5 (by decide)).trans <| rfl
theorem U_v6_4 (c : Dev nD) : U4 m c main_v6 = U3 m c main_v6 :=
  (U4_of m c main_v6 (by decide)).trans <| rfl
theorem U_v6_7 (c : Dev nD) : U7 m c main_v6 = U3 m c main_v6 :=
  (U7_of m c main_v6 (by decide)).trans <| (U6_of m c main_v6 (by decide)).trans <| (U5_of m c main_v6 (by decide)).trans <| (U4_of m c main_v6 (by decide)).trans <| rfl
theorem U_v6_10 (c : Dev nD) : U10 m c main_v6 = U3 m c main_v6 :=
  (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| rfl
theorem U_v29_4 (c : Dev nD) : U4 m c main_v29 = U3 m c main_v29 :=
  (U4_of m c main_v29 (by decide)).trans <| rfl
theorem U_v29_7 (c : Dev nD) : U7 m c main_v29 = U3 m c main_v29 :=
  (U7_of m c main_v29 (by decide)).trans <| (U6_of m c main_v29 (by decide)).trans <| (U5_of m c main_v29 (by decide)).trans <| (U4_of m c main_v29 (by decide)).trans <| rfl
theorem U_v29_10 (c : Dev nD) : U10 m c main_v29 = U3 m c main_v29 :=
  (U10_of m c main_v29 (by decide)).trans <| (U9_of m c main_v29 (by decide)).trans <| (U8_of m c main_v29 (by decide)).trans <| (U7_of m c main_v29 (by decide)).trans <| (U6_of m c main_v29 (by decide)).trans <| (U5_of m c main_v29 (by decide)).trans <| (U4_of m c main_v29 (by decide)).trans <| rfl

theorem U5_v43 (c : Dev nD) : U5 m c main_v43 = Cert.ReferenceIdeal.Spec.agg32 (U4 m c main_v30) (m ((c.tc : Thread nD τ).loc main_arg1)) := by
  have e5 : U4 m c (Proc.devRef .tc main_v5) = Cert.ReferenceIdeal.Spec.sIdx (m ((c.tc : Thread nD τ).loc main_arg1)) := (U_v5_4 m c).trans (U3_v5 m c)
  have e6 : U4 m c (Proc.devRef .tc main_v6) = Cert.ReferenceIdeal.Spec.dIdx (m ((c.tc : Thread nD τ).loc main_arg1)) := (U_v6_4 m c).trans (U3_v6 m c)
  have e29 : U4 m c (Proc.devRef .tc main_v29) = Cert.ReferenceIdeal.Spec.nrm (m ((c.tc : Thread nD τ).loc main_arg1)) := (U_v29_4 m c).trans (U3_v29 m c)
  show StableHlo.after hostOps1 (U4 m c) (Proc.devRef .tc main_v43) = _
  after_results_simp
  rw [e5, e6, e29]
  rfl

theorem U8_v59 (c : Dev nD) : U8 m c main_v59 = Cert.ReferenceIdeal.Spec.agg64 (U7 m c main_v46) (m ((c.tc : Thread nD τ).loc main_arg1)) := by
  have e5 : U7 m c (Proc.devRef .tc main_v5) = Cert.ReferenceIdeal.Spec.sIdx (m ((c.tc : Thread nD τ).loc main_arg1)) := (U_v5_7 m c).trans (U3_v5 m c)
  have e6 : U7 m c (Proc.devRef .tc main_v6) = Cert.ReferenceIdeal.Spec.dIdx (m ((c.tc : Thread nD τ).loc main_arg1)) := (U_v6_7 m c).trans (U3_v6 m c)
  have e29 : U7 m c (Proc.devRef .tc main_v29) = Cert.ReferenceIdeal.Spec.nrm (m ((c.tc : Thread nD τ).loc main_arg1)) := (U_v29_7 m c).trans (U3_v29 m c)
  show StableHlo.after hostOps3 (U7 m c) (Proc.devRef .tc main_v59) = _
  after_results_simp
  rw [e5, e6, e29]
  rfl

theorem U11_v75 (c : Dev nD) : U11 m c main_v75 = Cert.ReferenceIdeal.Spec.agg64 (U10 m c main_v62) (m ((c.tc : Thread nD τ).loc main_arg1)) := by
  have e5 : U10 m c (Proc.devRef .tc main_v5) = Cert.ReferenceIdeal.Spec.sIdx (m ((c.tc : Thread nD τ).loc main_arg1)) := (U_v5_10 m c).trans (U3_v5 m c)
  have e6 : U10 m c (Proc.devRef .tc main_v6) = Cert.ReferenceIdeal.Spec.dIdx (m ((c.tc : Thread nD τ).loc main_arg1)) := (U_v6_10 m c).trans (U3_v6 m c)
  have e29 : U10 m c (Proc.devRef .tc main_v29) = Cert.ReferenceIdeal.Spec.nrm (m ((c.tc : Thread nD τ).loc main_arg1)) := (U_v29_10 m c).trans (U3_v29 m c)
  show StableHlo.after hostOps5 (U10 m c) (Proc.devRef .tc main_v75) = _
  after_results_simp
  rw [e5, e6, e29]
  rfl

theorem U5_v44 (c : Dev nD) : U5 m c main_v44 = shapeCast S1x32 (m ((c.tc : Thread nD τ).loc main_arg4) : (⟨S32, .f32⟩ : BufTy).Contents (Elt F)) shapeCasts_S32_S1x32 := by
  show StableHlo.after hostOps1 (U4 m c) (Proc.devRef .tc main_v44) = _
  after_results_simp
  rw [show U4 m c (Proc.devRef .tc main_arg4) = _ from U_arg4_4 m c]
  rfl

theorem U8_v60 (c : Dev nD) : U8 m c main_v60 = shapeCast S1x64 (m ((c.tc : Thread nD τ).loc main_arg6) : (⟨S64, .f32⟩ : BufTy).Contents (Elt F)) shapeCasts_S64_S1x64 := by
  show StableHlo.after hostOps3 (U7 m c) (Proc.devRef .tc main_v60) = _
  after_results_simp
  rw [show U7 m c (Proc.devRef .tc main_arg6) = _ from U_arg7_6 m c]
  rfl

theorem U11_v76 (c : Dev nD) : U11 m c main_v76 = shapeCast S1x64 (m ((c.tc : Thread nD τ).loc main_arg8) : (⟨S64, .f32⟩ : BufTy).Contents (Elt F)) shapeCasts_S64_S1x64 := by
  show StableHlo.after hostOps5 (U10 m c) (Proc.devRef .tc main_v76) = _
  after_results_simp
  rw [show U10 m c (Proc.devRef .tc main_arg8) = _ from U_arg10_8 m c]
  rfl

theorem U13_v78 (c : Dev nD) : U13 m c main_v78 = shapeCast S100000x1 (m ((c.tc : Thread nD τ).loc main_arg2) : (⟨S100000, .i32⟩ : BufTy).Contents (Elt F)) shapeCasts_S100000_S100000x1 := by
  show StableHlo.after hostOps6 (U12 m c) (Proc.devRef .tc main_v78) = _
  after_results_simp
  rw [show U12 m c (Proc.devRef .tc main_arg2) = _ from U_arg12_2 m c]
  rfl

theorem U15_v80 (c : Dev nD) : U15 m c main_v80 = shapeCast S1x32 (m ((c.tc : Thread nD τ).loc main_arg10) : (⟨S32, .f32⟩ : BufTy).Contents (Elt F)) shapeCasts_S32_S1x32 := by
  show StableHlo.after hostOps7 (U14 m c) (Proc.devRef .tc main_v80) = _
  after_results_simp
  rw [show U14 m c (Proc.devRef .tc main_arg10) = _ from U_arg14_10 m c]
  rfl

theorem U15_v81 (c : Dev nD) : U15 m c main_v81 = shapeCast S1x5 (m ((c.tc : Thread nD τ).loc main_arg12) : (⟨S5, .f32⟩ : BufTy).Contents (Elt F)) shapeCasts_S5_S1x5 := by
  show StableHlo.after hostOps7 (U14 m c) (Proc.devRef .tc main_v81) = _
  after_results_simp
  rw [show U14 m c (Proc.devRef .tc main_arg12) = _ from U_arg14_12 m c]
  rfl

theorem U13_v77 (c : Dev nD) : U13 m c main_v77 = U12 m c main_v77 := U13_of m c main_v77 (by decide)
theorem U15_v79 (c : Dev nD) : U15 m c main_v79 = U14 m c main_v79 := U15_of m c main_v79 (by decide)

end Cert.KernelIdeal.Hand

end
-- ==== Proof.LibColumn.lean ====
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem bid_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) :=
  broadcastInDim_apply _ h x (ix2 u c) (ix1 c) fun a => by
    match a with
    | ⟨0, _⟩ =>
      show c.val = if b = 1 then 0 else c.val
      split
      · have := c.isLt; omega
      · rfl

theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v (ix2 p c) (ix2 (0 : Fin 1) c) fun ax => by
    match ax with
    | ⟨0, _⟩ => show (0 : ℕ) = if (1 : ℕ) = 1 then 0 else p.val; rw [if_pos rfl]
    | ⟨1, _⟩ =>
      show c.val = if b = 1 then 0 else c.val
      split
      · have := c.isLt; omega
      · rfl

theorem bid_scalar_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

end Layout

theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

section Reductions
variable {φ : FTy}

theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

end Reductions

section Dot
variable {a k b : ℕ} (D : DotDims (⟨2, ![a, k]⟩ : Shape) ⟨2, ![k, b]⟩ ⟨2, ![a, b]⟩)

theorem lhsIdx_free (hb : D.lhsBatch = []) (hn : D.lhsNonContracting = [0]) (i : (⟨2, ![a, b]⟩ : Shape).Idx) (c : D.contr.Idx) :
    (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (s t : Nat) (hs : s < (⟨2, ![a, b]⟩ : Shape).rank) (ht : t < (⟨2, ![a, b]⟩ : Shape).rank), s = t → (i ⟨s, hs⟩).val = (i ⟨t, ht⟩).val :=
    fun s t hs ht h => by subst h; rfl
  exact key _ _ _ _ (by simp [hb, hn])

theorem rhsIdx_free (hlb : D.lhsBatch = []) (hln : D.lhsNonContracting = [0]) (hb : D.rhsBatch = []) (hn : D.rhsNonContracting = [1])
    (i : (⟨2, ![a, b]⟩ : Shape).Idx) (c : D.contr.Idx) : (D.rhsIdx i c 1).val = (i 1).val := by
  unfold DotDims.rhsIdx
  rw [dif_neg (by rw [hb]; exact List.not_mem_nil), dif_pos (by rw [hn]; exact List.mem_singleton.mpr rfl)]
  simp only [Fin.val_cast]
  have key : ∀ (s t : Nat) (hs : s < (⟨2, ![a, b]⟩ : Shape).rank) (ht : t < (⟨2, ![a, b]⟩ : Shape).rank), s = t → (i ⟨s, hs⟩).val = (i ⟨t, ht⟩).val :=
    fun s t hs ht h => by subst h; rfl
  exact key _ _ _ _ (by simp [hlb, hln, hn])

-- a matrix product's sum over its one contracted axis, re-indexed by that axis's coordinate
theorem dot2_sum {φ₁ φ₂ : FTy} (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = k)
    (x : FVec Ideal (⟨2, ![a, k]⟩ : Shape) φ₁) (y : FVec Ideal (⟨2, ![k, b]⟩ : Shape) φ₂) (p : Fin a) (q : Fin b) :
    ∑ c : D.contr.Idx, x (D.lhsIdx (ix2 p q) c) * y (D.rhsIdx (ix2 p q) c) = ∑ j : Fin k, x (ix2 p j) * y (ix2 j q) := by
  rw [← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun t => Fin.ext (by
    match t with
    | ⟨0, _⟩ => exact lhsIdx_free D hlb hln _ _
    | ⟨1, _⟩ => exact (D.lhsIdx_val_of_single hlc _ _).trans hk)
  have er : D.rhsIdx (ix2 p q) ((contrEquiv1 D k hr hs).symm j) = ix2 j q := funext fun t => Fin.ext (by
    match t with
    | ⟨0, _⟩ => exact (D.rhsIdx_val_of_single hrc _ _).trans hk
    | ⟨1, _⟩ => exact rhsIdx_free D hlb hln hrb hrn _ _)
  rw [el, er]

end Dot

end Cert.LibColumn

end
-- ==== Proof.ValLin.lean ====
import proofs.«410316_j20426864460069_3_alg».proof.Proof.Half0
import proofs.«410316_j20426864460069_3_alg».proof.Proof.Spec
import proofs.«410316_j20426864460069_3_alg».proof.Proof.LibColumn
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

theorem pay0_apply (x0 : FVec Ideal S10000x3 .f32) (x1 : FVec Ideal S3x32 .f32) (p : Fin 10000) (q : Fin 32) :
    k0_pay1 (F := Ideal) x0 x1 (ix2 p q) = ∑ k : Fin 3, x0 (ix2 p k) * x1 (ix2 k q) := by
  unfold k0_pay1
  simp only [matmul, shapeCast_self]
  rw [Ideal.matmul_constant_zero_apply]
  exact Cert.LibColumn.dot2_sum dot_S10000x3_S3x32_S10000x32_1_0_0_1_n_n rfl rfl rfl rfl rfl rfl rfl rfl x0 x1 p q

theorem host0_apply (x : FVec Ideal Cert.ReferenceIdeal.S100000x3 .f32) (W : FVec Ideal Cert.ReferenceIdeal.S3x32 .f32) (r : Fin 100000) (q : Fin 32) :
    Host.dotGeneral (F := Ideal) Cert.ReferenceIdeal.dot_S100000x3_S3x32_S100000x32_1_0_0_1_n_n none x W (ix2 r q) = ∑ k : Fin 3, x (ix2 r k) * W (ix2 k q) := by
  simp only [Host.dotGeneral]
  rw [Ideal.dotGeneral_apply]
  exact Cert.LibColumn.dot2_sum Cert.ReferenceIdeal.dot_S100000x3_S3x32_S100000x32_1_0_0_1_n_n rfl rfl rfl rfl rfl rfl rfl rfl x W r q

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable (V : (c : Dev nD) → (b : Ref sig .tc) → Buf (Elt Ideal) ((c : Thread nD τ).loc b))

theorem hz0 : (![0, 0] : Fin 2 → Nat) = fun _ => 0 := funext fun a => by
  match a with
  | ⟨0, _⟩ => rfl
  | ⟨1, _⟩ => rfl

theorem iblk0_0_apply (c : Dev nD) (t : Fin cfg0.N) (p : Fin 10000) (k : Fin 3) (r : Fin 100000) (hr : r.val = t.val * 10000 + p.val) :
    (iblk0 V c 0 t : FVec Ideal S10000x3 .f32) (ix2 p k) = (V c main_arg0 : FVec Ideal S100000x3 .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 3 + 1 * k.val = k.val; rw [e1]; omega

theorem iblk0_1_apply (c : Dev nD) (t : Fin cfg0.N) (k : Fin 3) (q : Fin 32) :
    (iblk0 V c 1 t : FVec Ideal S3x32 .f32) (ix2 k q) = (V c main_arg3 : FVec Ideal S3x32 .f32) (ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 3 + 1 * k.val = k.val; rw [e2]; omega
  | ⟨1, _⟩ => show win0_1.index t (1 : Fin 2) * 32 + 1 * q.val = q.val; rw [e3]; omega

theorem out0_blk (c : Dev nD) (t : Fin cfg0.N) :
    (k0_pay1 (F := Ideal) (iblk0 V c 0 t) (iblk0 V c 1 t) : FVec Ideal S10000x32 .f32)
      = ((cfg0.win 2).blk t).view.read (Elt Ideal) (Cert.ReferenceIdeal.Spec.lin1 (F := Ideal) (V c main_arg0) (V c main_arg3)) := by
  funext j
  obtain ⟨p, q, rfl⟩ : ∃ (p : Fin 10000) (q : Fin 32), j = ix2 p q := ⟨j 0, j 1, eq_ix2 j⟩
  have ht : t.val < 10 := by have h : t.val < grid0.N := t.isLt; rw [N_0] at h; exact h
  obtain ⟨-, -, -, -, e4, e5⟩ := idx_facts0 t
  rw [pay0_apply, View.read_apply]
  show _ = Cert.ReferenceIdeal.Spec.lin1 (F := Ideal) (V c main_arg0) (V c main_arg3) (((cfg0.win 2).blk t).view.emb (ix2 p q))
  have hemb : ((cfg0.win 2).blk t).view.emb (ix2 p q) = (ix2 (⟨t.val * 10000 + p.val, by omega⟩ : Fin 100000) q : S100000x32.Idx) := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 32 + 1 * q.val = q.val; rw [e5]; omega
  rw [hemb]
  unfold Cert.ReferenceIdeal.Spec.lin1
  rw [host0_apply]
  refine Finset.sum_congr rfl fun k _ => ?_
  rw [iblk0_0_apply V c t p k ⟨t.val * 10000 + p.val, by omega⟩ rfl, iblk0_1_apply V c t k q]

theorem flushed0_eq (c : Dev nD) (t : Fin cfg0.N) :
    (dat0 (F := Ideal) V c).flushed 2 t = ((cfg0.win 2).blk t).view.read (Elt Ideal) (Cert.ReferenceIdeal.Spec.lin1 (F := Ideal) (V c main_arg0) (V c main_arg3)) := by
  show (cfg0.win 2).cut (grid0.coords t) ((dat0 V c).after 2 t) = _
  rw [after0_2]
  unfold out0_2
  rw [View.canon_unit_zero hz0]
  simp only [View.ld_unit_zero (S := S10000x3) hz0, View.ld_unit_zero (S := S3x32) hz0]
  exact out0_blk V c t

theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  let t : Fin cfg0.N := ⟨(i 0).val / 10000, by show (i 0).val / 10000 < grid0.N; omega⟩
  have htv : t.val = (i 0).val / 10000 := rfl
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, htv]; omega
  | ⟨1, _⟩ => show win0_2.index t (1 : Fin 2) * 32 ≤ (i 1).val ∧ (i 1).val < win0_2.index t (1 : Fin 2) * 32 + 32; rw [e5]; omega

-- each block of the output holds its rows of the matrix product, and the blocks cover the array
theorem lin0_val (c : Dev nD) : (dat0 (F := Ideal) V c).arrAt 2 cfg0.N = Cert.ReferenceIdeal.Spec.lin1 (F := Ideal) (V c main_arg0) (V c main_arg3) :=
  (dat0 (F := Ideal) V c).arrAt_eq_of_cover 2 (Cert.ReferenceIdeal.Spec.lin1 (F := Ideal) (V c main_arg0) (V c main_arg3)) (fun t _ => flushed0_eq V c t) cover0

end Blocks

end Cert.KernelIdeal.Hand
-- ==== Proof.ValLin2.lean ====
import proofs.«410316_j20426864460069_3_alg».proof.Proof.Half2
import proofs.«410316_j20426864460069_3_alg».proof.Proof.Spec
import proofs.«410316_j20426864460069_3_alg».proof.Proof.LibColumn
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

theorem pay2_apply (x0 : FVec Ideal S10000x32 .f32) (x1 : FVec Ideal S32x64 .f32) (p : Fin 10000) (q : Fin 64) :
    k2_pay1 (F := Ideal) x0 x1 (ix2 p q) = ∑ k : Fin 32, x0 (ix2 p k) * x1 (ix2 k q) := by
  unfold k2_pay1
  simp only [matmul, shapeCast_self]
  rw [Ideal.matmul_constant_zero_apply]
  exact Cert.LibColumn.dot2_sum dot_S10000x32_S32x64_S10000x64_1_0_0_1_n_n rfl rfl rfl rfl rfl rfl rfl rfl x0 x1 p q

theorem host2_apply (x : FVec Ideal Cert.ReferenceIdeal.S100000x32 .f32) (W : FVec Ideal Cert.ReferenceIdeal.S32x64 .f32) (r : Fin 100000) (q : Fin 64) :
    Host.dotGeneral (F := Ideal) Cert.ReferenceIdeal.dot_S100000x32_S32x64_S100000x64_1_0_0_1_n_n none x W (ix2 r q) = ∑ k : Fin 32, x (ix2 r k) * W (ix2 k q) := by
  simp only [Host.dotGeneral]
  rw [Ideal.dotGeneral_apply]
  exact Cert.LibColumn.dot2_sum Cert.ReferenceIdeal.dot_S100000x32_S32x64_S100000x64_1_0_0_1_n_n rfl rfl rfl rfl rfl rfl rfl rfl x W r q

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Blocks
variable (V : (c : Dev nD) → (b : Ref sig .tc) → Buf (Elt Ideal) ((c : Thread nD τ).loc b))

theorem hz2 : (![0, 0] : Fin 2 → Nat) = fun _ => 0 := funext fun a => by
  match a with
  | ⟨0, _⟩ => rfl
  | ⟨1, _⟩ => rfl

theorem iblk2_0_apply (c : Dev nD) (t : Fin cfg2.N) (p : Fin 10000) (k : Fin 32) (r : Fin 100000) (hr : r.val = t.val * 10000 + p.val) :
    (iblk2 V c 0 t : FVec Ideal S10000x32 .f32) (ix2 p k) = (V c main_v45 : FVec Ideal S100000x32 .f32) (ix2 r k) := by
  obtain ⟨e0, e1, -⟩ := idx_facts2 t
  unfold iblk2
  rw [View.read_apply]
  show V c main_v45 _ = V c main_v45 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 32 + 1 * k.val = k.val; rw [e1]; omega

theorem iblk2_1_apply (c : Dev nD) (t : Fin cfg2.N) (k : Fin 32) (q : Fin 64) :
    (iblk2 V c 1 t : FVec Ideal S32x64 .f32) (ix2 k q) = (V c main_arg5 : FVec Ideal S32x64 .f32) (ix2 k q) := by
  obtain ⟨-, -, e2, e3, -⟩ := idx_facts2 t
  unfold iblk2
  rw [View.read_apply]
  show V c main_arg5 _ = V c main_arg5 _
  congr 1
  funext a
  apply Fin.ext
  match a with
  | ⟨0, _⟩ => show win2_1.index t (0 : Fin 2) * 32 + 1 * k.val = k.val; rw [e2]; omega
  | ⟨1, _⟩ => show win2_1.index t (1 : Fin 2) * 64 + 1 * q.val = q.val; rw [e3]; omega

theorem out2_blk (c : Dev nD) (t : Fin cfg2.N) :
    (k2_pay1 (F := Ideal) (iblk2 V c 0 t) (iblk2 V c 1 t) : FVec Ideal S10000x64 .f32)
      = ((cfg2.win 2).blk t).view.read (Elt Ideal) (Cert.ReferenceIdeal.Spec.lin2 (F := Ideal) (V c main_v45) (V c main_arg5)) := by
  funext j
  obtain ⟨p, q, rfl⟩ : ∃ (p : Fin 10000) (q : Fin 64), j = ix2 p q := ⟨j 0, j 1, eq_ix2 j⟩
  have ht : t.val < 10 := by have h : t.val < grid2.N := t.isLt; rw [N_2] at h; exact h
  obtain ⟨-, -, -, -, e4, e5⟩ := idx_facts2 t
  rw [pay2_apply, View.read_apply]
  show _ = Cert.ReferenceIdeal.Spec.lin2 (F := Ideal) (V c main_v45) (V c main_arg5) (((cfg2.win 2).blk t).view.emb (ix2 p q))
  have hemb : ((cfg2.win 2).blk t).view.emb (ix2 p q) = (ix2 (⟨t.val * 10000 + p.val, by omega⟩ : Fin 100000) q : S100000x64.Idx) := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 64 + 1 * q.val = q.val; rw [e5]; omega
  rw [hemb]
  unfold Cert.ReferenceIdeal.Spec.lin2
  rw [host2_apply]
  refine Finset.sum_congr rfl fun k _ => ?_
  rw [iblk2_0_apply V c t p k ⟨t.val * 10000 + p.val, by omega⟩ rfl, iblk2_1_apply V c t k q]

theorem flushed2_eq (c : Dev nD) (t : Fin cfg2.N) :
    (dat2 (F := Ideal) V c).flushed 2 t = ((cfg2.win 2).blk t).view.read (Elt Ideal) (Cert.ReferenceIdeal.Spec.lin2 (F := Ideal) (V c main_v45) (V c main_arg5)) := by
  show (cfg2.win 2).cut (grid2.coords t) ((dat2 V c).after 2 t) = _
  rw [after2_2]
  unfold out2_2
  rw [View.canon_unit_zero hz2]
  simp only [View.ld_unit_zero (S := S10000x32) hz2, View.ld_unit_zero (S := S32x64) hz2]
  exact out2_blk V c t

theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; omega⟩
  have htv : t.val = (i 0).val / 10000 := rfl
  obtain ⟨-, -, -, -, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e4, htv]; omega
  | ⟨1, _⟩ => show win2_2.index t (1 : Fin 2) * 64 ≤ (i 1).val ∧ (i 1).val < win2_2.index t (1 : Fin 2) * 64 + 64; rw [e5]; omega

theorem lin2_val (c : Dev nD) : (dat2 (F := Ideal) V c).arrAt 2 cfg2.N = Cert.ReferenceIdeal.Spec.lin2 (F := Ideal) (V c main_v45) (V c main_arg5) :=
  (dat2 (F := Ideal) V c).arrAt_eq_of_cover 2 (Cert.ReferenceIdeal.Spec.lin2 (F := Ideal) (V c main_v45) (V c main_arg5)) (fun t _ => flushed2_eq V c t) cover2

end Blocks

end Cert.KernelIdeal.Hand
-- ==== Proof.ValLin4.lean ====
import proofs.«410316_j20426864460069_3_alg».proof.Proof.Half4
import proofs.«410316_j20426864460069_3_alg».proof.Proof.Spec
import proofs.«410316_j20426864460069_3_alg».proof.Proof.LibColumn
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

theorem pay4_apply (x0 : FVec Ideal S10000x64 .f32) (x1 : FVec Ideal S64x64 .f32) (p : Fin 10000) (q : Fin 64) :
    k4_pay1 (F := Ideal) x0 x1 (ix2 p q) = ∑ k : Fin 64, x0 (ix2 p k) * x1 (ix2 k q) := by
  unfold k4_pay1
  simp only [matmul, shapeCast_self]
  rw [Ideal.matmul_constant_zero_apply]
  exact Cert.LibColumn.dot2_sum dot_S10000x64_S64x64_S10000x64_1_0_0_1_n_n rfl rfl rfl rfl rfl rfl rfl rfl x0 x1 p q

theorem host4_apply (x : FVec Ideal Cert.ReferenceIdeal.S100000x64 .f32) (W : FVec Ideal Cert.ReferenceIdeal.S64x64 .f32) (r : Fin 100000) (q : Fin 64) :
    Host.dotGeneral (F := Ideal) Cert.ReferenceIdeal.dot_S100000x64_S64x64_S100000x64_1_0_0_1_n_n none x W (ix2 r q) = ∑ k : Fin 64, x (ix2 r k) * W (ix2 k q) := by
  simp only [Host.dotGeneral]
  rw [Ideal.dotGeneral_apply]
  exact Cert.LibColumn.dot2_sum Cert.ReferenceIdeal.dot_S100000x64_S64x64_S100000x64_1_0_0_1_n_n rfl rfl rfl rfl rfl rfl rfl rfl x W r q

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section Blocks
variable (V : (c : Dev nD) → (b : Ref sig .tc) → Buf (Elt Ideal) ((c : Thread nD τ).loc b))

theorem hz4 : (![0, 0] : Fin 2 → Nat) = fun _ => 0 := funext fun a => by
  match a with
  | ⟨0, _⟩ => rfl
  | ⟨1, _⟩ => rfl

theorem iblk4_0_apply (c : Dev nD) (t : Fin cfg4.N) (p : Fin 10000) (k : Fin 64) (r : Fin 100000) (hr : r.val = t.val * 10000 + p.val) :
    (iblk4 V c 0 t : FVec Ideal S10000x64 .f32) (ix2 p k) = (V c main_v61 : FVec Ideal S100000x64 .f32) (ix2 r k) := by
  obtain ⟨e0, e1, -⟩ := idx_facts4 t
  unfold iblk4
  rw [View.read_apply]
  show V c main_v61 _ = V c main_v61 _
  congr 1
  funext a
  apply Fin.ext
  match a with
  | ⟨0, _⟩ => show win4_0.index t (0 : Fin 2) * 10000 + 1 * p.val = r.val; rw [e0, hr]; omega
  | ⟨1, _⟩ => show win4_0.index t (1 : Fin 2) * 64 + 1 * k.val = k.val; rw [e1]; omega

theorem iblk4_1_apply (c : Dev nD) (t : Fin cfg4.N) (k : Fin 64) (q : Fin 64) :
    (iblk4 V c 1 t : FVec Ideal S64x64 .f32) (ix2 k q) = (V c main_arg7 : FVec Ideal S64x64 .f32) (ix2 k q) := by
  obtain ⟨-, -, e2, e3, -⟩ := idx_facts4 t
  unfold iblk4
  rw [View.read_apply]
  show V c main_arg7 _ = V c main_arg7 _
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

theorem out4_blk (c : Dev nD) (t : Fin cfg4.N) :
    (k4_pay1 (F := Ideal) (iblk4 V c 0 t) (iblk4 V c 1 t) : FVec Ideal S10000x64 .f32)
      = ((cfg4.win 2).blk t).view.read (Elt Ideal) (Cert.ReferenceIdeal.Spec.lin3 (F := Ideal) (V c main_v61) (V c main_arg7)) := by
  funext j
  obtain ⟨p, q, rfl⟩ : ∃ (p : Fin 10000) (q : Fin 64), j = ix2 p q := ⟨j 0, j 1, eq_ix2 j⟩
  have ht : t.val < 10 := by have h : t.val < grid4.N := t.isLt; rw [N_4] at h; exact h
  obtain ⟨-, -, -, -, e4, e5⟩ := idx_facts4 t
  rw [pay4_apply, View.read_apply]
  show _ = Cert.ReferenceIdeal.Spec.lin3 (F := Ideal) (V c main_v61) (V c main_arg7) (((cfg4.win 2).blk t).view.emb (ix2 p q))
  have hemb : ((cfg4.win 2).blk t).view.emb (ix2 p q) = (ix2 (⟨t.val * 10000 + p.val, by omega⟩ : Fin 100000) q : S100000x64.Idx) := by
    funext a; apply Fin.ext
    match a with
    | ⟨0, _⟩ => show win4_2.index t (0 : Fin 2) * 10000 + 1 * p.val = t.val * 10000 + p.val; rw [e4]; omega
    | ⟨1, _⟩ => show win4_2.index t (1 : Fin 2) * 64 + 1 * q.val = q.val; rw [e5]; omega
  rw [hemb]
  unfold Cert.ReferenceIdeal.Spec.lin3
  rw [host4_apply]
  refine Finset.sum_congr rfl fun k _ => ?_
  rw [iblk4_0_apply V c t p k ⟨t.val * 10000 + p.val, by omega⟩ rfl, iblk4_1_apply V c t k q]

theorem flushed4_eq (c : Dev nD) (t : Fin cfg4.N) :
    (dat4 (F := Ideal) V c).flushed 2 t = ((cfg4.win 2).blk t).view.read (Elt Ideal) (Cert.ReferenceIdeal.Spec.lin3 (F := Ideal) (V c main_v61) (V c main_arg7)) := by
  show (cfg4.win 2).cut (grid4.coords t) ((dat4 V c).after 2 t) = _
  rw [after4_2]
  unfold out4_2
  rw [View.canon_unit_zero hz4]
  simp only [View.ld_unit_zero (S := S10000x64) hz4, View.ld_unit_zero (S := S64x64) hz4]
  exact out4_blk V c t

theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  let t : Fin cfg4.N := ⟨(i 0).val / 10000, by show (i 0).val / 10000 < grid4.N; omega⟩
  have htv : t.val = (i 0).val / 10000 := rfl
  obtain ⟨-, -, -, -, e4, e5⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; rw [e4, htv]; omega
  | ⟨1, _⟩ => show win4_2.index t (1 : Fin 2) * 64 ≤ (i 1).val ∧ (i 1).val < win4_2.index t (1 : Fin 2) * 64 + 64; rw [e5]; omega

theorem lin4_val (c : Dev nD) : (dat4 (F := Ideal) V c).arrAt 2 cfg4.N = Cert.ReferenceIdeal.Spec.lin3 (F := Ideal) (V c main_v61) (V c main_arg7) :=
  (dat4 (F := Ideal) V c).arrAt_eq_of_cover 2 (Cert.ReferenceIdeal.Spec.lin3 (F := Ideal) (V c main_v61) (V c main_arg7)) (fun t _ => flushed4_eq V c t) cover4

end Blocks

end Cert.KernelIdeal.Hand
-- ==== Proof.ValBias.lean ====
import proofs.«410316_j20426864460069_3_alg».proof.Proof.Half1
import proofs.«410316_j20426864460069_3_alg».proof.Proof.Half3
import proofs.«410316_j20426864460069_3_alg».proof.Proof.Half5
import proofs.«410316_j20426864460069_3_alg».proof.Proof.Spec
import proofs.«410316_j20426864460069_3_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

theorem row32_eq (b : (⟨S32, .f32⟩ : BufTy).Contents (Elt F)) :
    shapeCast S1x32 b shapeCasts_S32_S1x32 = broadcastInDim S1x32 ![1] Cert.ReferenceIdeal.Gen.bcast_S32_S1x32_1 b := by
  funext j
  obtain ⟨u, i, rfl⟩ : ∃ (u : Fin 1) (i : Fin 32), j = ix2 u i := ⟨j 0, j 1, eq_ix2 j⟩
  exact (shapeCast_a_1a_apply (a := 32) b _ u i).trans (Cert.LibColumn.bid_b_1b_apply (b := 32) b _ u i).symm

theorem row64_eq (b : (⟨S64, .f32⟩ : BufTy).Contents (Elt F)) :
    shapeCast S1x64 b shapeCasts_S64_S1x64 = broadcastInDim S1x64 ![1] Cert.ReferenceIdeal.Gen.bcast_S64_S1x64_1 b := by
  funext j
  obtain ⟨u, i, rfl⟩ : ∃ (u : Fin 1) (i : Fin 64), j = ix2 u i := ⟨j 0, j 1, eq_ix2 j⟩
  exact (shapeCast_a_1a_apply (a := 64) b _ u i).trans (Cert.LibColumn.bid_b_1b_apply (b := 64) b _ u i).symm

theorem pay1_apply (x0 : Vec F S10000x32 .f32) (x1 : Vec F S1x32 .f32) (p : Fin 10000) (q : Fin 32) :
    k1_pay1 x0 x1 (ix2 p q)
      = FloatOps.maximumf (FloatOps.addf ((x0 : FVec F S10000x32 .f32) (ix2 p q)) ((x1 : FVec F S1x32 .f32) (ix2 (0 : Fin 1) q))) (FloatOps.ofBits .f32 0x00000000#32) := by
  unfold k1_pay1
  show FloatOps.maximumf (FloatOps.addf (shapeCast S10000x32 (x0 : FVec F S10000x32 .f32) shapeCasts_S10000x32_S10000x32 (ix2 p q))
      (broadcastTo S10000x32 (shapeCast S1x32 (x1 : FVec F S1x32 .f32) shapeCasts_S1x32_S1x32) broadcasts_S1x32_S10000x32 (ix2 p q))) _ = _
  rw [shapeCast_self, broadcastTo_1b_ab_apply, shapeCast_self]
  rfl

theorem biasRelu32_apply (a : (⟨S100000x32, .f32⟩ : BufTy).Contents (Elt F)) (b : (⟨S32, .f32⟩ : BufTy).Contents (Elt F)) (r : Fin 100000) (q : Fin 32) :
    Cert.ReferenceIdeal.Spec.biasRelu32 a b (ix2 r q)
      = FloatOps.maximumf (FloatOps.addf ((a : FVec F S100000x32 .f32) (ix2 r q)) ((b : FVec F S32 .f32) (ix1 q))) (FloatOps.ofBits .f32 0x00000000#32) := by
  unfold Cert.ReferenceIdeal.Spec.biasRelu32
  show FloatOps.maximumf (FloatOps.addf ((a : FVec F S100000x32 .f32) (ix2 r q))
      (broadcastInDim (⟨2, ![100000, 32]⟩ : Shape) ![0, 1] Cert.ReferenceIdeal.Gen.bcast_S1x32_S100000x32_0_1 (broadcastInDim (⟨2, ![1, 32]⟩ : Shape) ![1] Cert.ReferenceIdeal.Gen.bcast_S32_S1x32_1 (b : FVec F S32 .f32)) (ix2 r q)))
      (broadcastInDim (⟨2, ![100000, 32]⟩ : Shape) ![] Cert.ReferenceIdeal.Gen.bcast_S_S100000x32 (constant (F := F) S_ .f32 0x00000000#32) (ix2 r q)) = _
  rw [Cert.LibColumn.bid_1b_ab_apply, Cert.LibColumn.bid_b_1b_apply, Cert.LibColumn.bid_scalar_apply]
  rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

theorem flushed1_eq (c : Dev nD) (b : (⟨S32, .f32⟩ : BufTy).Contents (Elt F))
    (hb : V c main_v44 = broadcastInDim S1x32 ![1] Cert.ReferenceIdeal.Gen.bcast_S32_S1x32_1 b) (t : Fin cfg1.N) :
    (dat1 (F := F) V c).flushed 2 t = ((cfg1.win 2).blk t).view.read (Elt F) (Cert.ReferenceIdeal.Spec.biasRelu32 (V c main_v43) b) := by
  show (cfg1.win 2).cut (grid1.coords t) ((dat1 V c).after 2 t) = _
  rw [after1_2]
  unfold out1_2
  rw [View.canon_unit_zero hz]
  simp only [View.ld_unit_zero (S := S10000x32) hz, View.ld_unit_zero (S := S1x32) hz]
  obtain ⟨e0, e1, e2, e3, e4, e5⟩ := idx_facts1 t
  have hN : cfg1.N = 10 := N_1
  have ht : t.val < 10 := hN ▸ t.isLt
  funext j
  obtain ⟨p, q, rfl⟩ : ∃ (p : Fin 10000) (q : Fin 32), j = ix2 p q := ⟨j 0, j 1, eq_ix2 j⟩
  show k1_pay1 (iblk1 V c 0 t) (iblk1 V c 1 t) (ix2 p q) = Cert.ReferenceIdeal.Spec.biasRelu32 (V c main_v43) b (((cfg1.win 2).blk t).view.emb (ix2 p q))
  have he : ((cfg1.win 2).blk t).view.emb (ix2 p q) = ix2 (⟨t.val * 10000 + p.val, by have := p.isLt; omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 32 + 1 * q.val = q.val; omega
  rw [he, pay1_apply, biasRelu32_apply]
  have h0 : (iblk1 V c 0 t : FVec F S10000x32 .f32) (ix2 p q) = (V c main_v43 : FVec F S100000x32 .f32) (ix2 (⟨t.val * 10000 + p.val, by have := p.isLt; omega⟩ : Fin 100000) q) := by
    show (V c main_v43 : FVec F S100000x32 .f32) (((cfg1.win 0).blk t).view.emb (ix2 p q)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 32 + 1 * q.val = q.val; omega
  have h1 : (iblk1 V c 1 t : FVec F S1x32 .f32) (ix2 (0 : Fin 1) q) = (b : FVec F S32 .f32) (ix1 q) := by
    show (V c main_v44 : FVec F S1x32 .f32) (((cfg1.win 1).blk t).view.emb (ix2 (0 : Fin 1) q)) = _
    rw [hb]
    refine Eq.trans (congrArg _ (funext fun a => Fin.ext ?_)) (Cert.LibColumn.bid_b_1b_apply (b := 32) b _ (0 : Fin 1) q)
    match a with
    | ⟨0, _⟩ => show win1_1.index t (0 : Fin 2) * 1 + 1 * 0 = 0; omega
    | ⟨1, _⟩ => show win1_1.index t (1 : Fin 2) * 32 + 1 * q.val = q.val; omega
  rw [h0, h1]

theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v45).slice (win1_2.rect t)).set ↔ _
  rw [View.set_slice_whole, Rect.mem_set_unit]
  exact Iff.rfl

theorem cover1 (i : S100000x32.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 32 := (i 1).isLt
  refine ⟨⟨(i 0).val / 10000, by omega⟩, flush1_2 _, ?_⟩
  rw [mem_blk1]
  obtain ⟨e0, e1, e2, e3, e4, e5⟩ := idx_facts1 ⟨(i 0).val / 10000, by omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 32 ≤ (i 1).val ∧ (i 1).val < win1_2.index _ (1 : Fin 2) * 32 + 32
    rw [e5]; omega

-- entry by entry max (a + b, 0) over a row block; the blocks cover the array
theorem bias1_val (c : Dev nD) (b : (⟨S32, .f32⟩ : BufTy).Contents (Elt F))
    (hb : V c main_v44 = broadcastInDim S1x32 ![1] Cert.ReferenceIdeal.Gen.bcast_S32_S1x32_1 b) :
    (dat1 (F := F) V c).arrAt 2 cfg1.N = Cert.ReferenceIdeal.Spec.biasRelu32 (V c main_v43) b :=
  (dat1 V c).arrAt_eq_of_cover 2 (Cert.ReferenceIdeal.Spec.biasRelu32 (V c main_v43) b) (fun t _ => flushed1_eq V c b hb t) cover1

theorem pay3_apply (x0 : Vec F S10000x64 .f32) (x1 : Vec F S1x64 .f32) (p : Fin 10000) (q : Fin 64) :
    k3_pay1 x0 x1 (ix2 p q)
      = FloatOps.maximumf (FloatOps.addf ((x0 : FVec F S10000x64 .f32) (ix2 p q)) ((x1 : FVec F S1x64 .f32) (ix2 (0 : Fin 1) q))) (FloatOps.ofBits .f32 0x00000000#32) := by
  unfold k3_pay1
  show FloatOps.maximumf (FloatOps.addf (shapeCast S10000x64 (x0 : FVec F S10000x64 .f32) shapeCasts_S10000x64_S10000x64 (ix2 p q))
      (broadcastTo S10000x64 (shapeCast S1x64 (x1 : FVec F S1x64 .f32) shapeCasts_S1x64_S1x64) broadcasts_S1x64_S10000x64 (ix2 p q))) _ = _
  rw [shapeCast_self, broadcastTo_1b_ab_apply, shapeCast_self]
  rfl

theorem biasRelu64_apply (a : (⟨S100000x64, .f32⟩ : BufTy).Contents (Elt F)) (b : (⟨S64, .f32⟩ : BufTy).Contents (Elt F)) (r : Fin 100000) (q : Fin 64) :
    Cert.ReferenceIdeal.Spec.biasRelu64 a b (ix2 r q)
      = FloatOps.maximumf (FloatOps.addf ((a : FVec F S100000x64 .f32) (ix2 r q)) ((b : FVec F S64 .f32) (ix1 q))) (FloatOps.ofBits .f32 0x00000000#32) := by
  unfold Cert.ReferenceIdeal.Spec.biasRelu64
  show FloatOps.maximumf (FloatOps.addf ((a : FVec F S100000x64 .f32) (ix2 r q))
      (broadcastInDim (⟨2, ![100000, 64]⟩ : Shape) ![0, 1] Cert.ReferenceIdeal.Gen.bcast_S1x64_S100000x64_0_1 (broadcastInDim (⟨2, ![1, 64]⟩ : Shape) ![1] Cert.ReferenceIdeal.Gen.bcast_S64_S1x64_1 (b : FVec F S64 .f32)) (ix2 r q)))
      (broadcastInDim (⟨2, ![100000, 64]⟩ : Shape) ![] Cert.ReferenceIdeal.Gen.bcast_S_S100000x64 (constant (F := F) S_ .f32 0x00000000#32) (ix2 r q)) = _
  rw [Cert.LibColumn.bid_1b_ab_apply, Cert.LibColumn.bid_b_1b_apply, Cert.LibColumn.bid_scalar_apply]
  rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (b : (⟨S64, .f32⟩ : BufTy).Contents (Elt F))
    (hb : V c main_v60 = broadcastInDim S1x64 ![1] Cert.ReferenceIdeal.Gen.bcast_S64_S1x64_1 b) (t : Fin cfg3.N) :
    (dat3 (F := F) V c).flushed 2 t = ((cfg3.win 2).blk t).view.read (Elt F) (Cert.ReferenceIdeal.Spec.biasRelu64 (V c main_v59) b) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts3 t
  have hN : cfg3.N = 10 := N_3
  have ht : t.val < 10 := hN ▸ t.isLt
  funext j
  obtain ⟨p, q, rfl⟩ : ∃ (p : Fin 10000) (q : Fin 64), j = ix2 p q := ⟨j 0, j 1, eq_ix2 j⟩
  show k3_pay1 (iblk3 V c 0 t) (iblk3 V c 1 t) (ix2 p q) = Cert.ReferenceIdeal.Spec.biasRelu64 (V c main_v59) b (((cfg3.win 2).blk t).view.emb (ix2 p q))
  have he : ((cfg3.win 2).blk t).view.emb (ix2 p q) = ix2 (⟨t.val * 10000 + p.val, by have := p.isLt; omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [he, pay3_apply, biasRelu64_apply]
  have h0 : (iblk3 V c 0 t : FVec F S10000x64 .f32) (ix2 p q) = (V c main_v59 : FVec F S100000x64 .f32) (ix2 (⟨t.val * 10000 + p.val, by have := p.isLt; omega⟩ : Fin 100000) q) := by
    show (V c main_v59 : FVec F S100000x64 .f32) (((cfg3.win 0).blk t).view.emb (ix2 p q)) = _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : (iblk3 V c 1 t : FVec F S1x64 .f32) (ix2 (0 : Fin 1) q) = (b : FVec F S64 .f32) (ix1 q) := by
    show (V c main_v60 : FVec F S1x64 .f32) (((cfg3.win 1).blk t).view.emb (ix2 (0 : Fin 1) q)) = _
    rw [hb]
    refine Eq.trans (congrArg _ (funext fun a => Fin.ext ?_)) (Cert.LibColumn.bid_b_1b_apply (b := 64) b _ (0 : Fin 1) q)
    match a with
    | ⟨0, _⟩ => show win3_1.index t (0 : Fin 2) * 1 + 1 * 0 = 0; omega
    | ⟨1, _⟩ => show win3_1.index t (1 : Fin 2) * 64 + 1 * q.val = q.val; omega
  rw [h0, h1]

theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

theorem cover3 (i : S100000x64.Idx) : ∃ t : Fin cfg3.N, (cfg3.win 2).flush t = true ∧ i ∈ ((cfg3.win 2).blk t).view.set := by
  have hN : cfg3.N = 10 := N_3
  have hi0 : (i 0).val < 100000 := (i 0).isLt
  have hi1 : (i 1).val < 64 := (i 1).isLt
  refine ⟨⟨(i 0).val / 10000, by omega⟩, flush3_2 _, ?_⟩
  rw [mem_blk3]
  obtain ⟨e0, e1, e2, e3, e4, e5⟩ := idx_facts3 ⟨(i 0).val / 10000, by omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 64 ≤ (i 1).val ∧ (i 1).val < win3_2.index _ (1 : Fin 2) * 64 + 64
    rw [e5]; omega

theorem bias3_val (c : Dev nD) (b : (⟨S64, .f32⟩ : BufTy).Contents (Elt F))
    (hb : V c main_v60 = broadcastInDim S1x64 ![1] Cert.ReferenceIdeal.Gen.bcast_S64_S1x64_1 b) :
    (dat3 (F := F) V c).arrAt 2 cfg3.N = Cert.ReferenceIdeal.Spec.biasRelu64 (V c main_v59) b :=
  (dat3 V c).arrAt_eq_of_cover 2 (Cert.ReferenceIdeal.Spec.biasRelu64 (V c main_v59) b) (fun t _ => flushed3_eq V c b hb t) cover3

theorem pay5_apply (x0 : Vec F S10000x64 .f32) (x1 : Vec F S1x64 .f32) (p : Fin 10000) (q : Fin 64) :
    k5_pay1 x0 x1 (ix2 p q)
      = FloatOps.addf ((x0 : FVec F S10000x64 .f32) (ix2 p q)) ((x1 : FVec F S1x64 .f32) (ix2 (0 : Fin 1) q)) := by
  unfold k5_pay1
  show FloatOps.addf (shapeCast S10000x64 (x0 : FVec F S10000x64 .f32) shapeCasts_S10000x64_S10000x64 (ix2 p q))
      (broadcastTo S10000x64 (shapeCast S1x64 (x1 : FVec F S1x64 .f32) shapeCasts_S1x64_S1x64) broadcasts_S1x64_S10000x64 (ix2 p q)) = _
  rw [shapeCast_self, broadcastTo_1b_ab_apply, shapeCast_self]

theorem bias64_apply (a : (⟨S100000x64, .f32⟩ : BufTy).Contents (Elt F)) (b : (⟨S64, .f32⟩ : BufTy).Contents (Elt F)) (r : Fin 100000) (q : Fin 64) :
    Cert.ReferenceIdeal.Spec.bias64 a b (ix2 r q)
      = FloatOps.addf ((a : FVec F S100000x64 .f32) (ix2 r q)) ((b : FVec F S64 .f32) (ix1 q)) := by
  unfold Cert.ReferenceIdeal.Spec.bias64
  show FloatOps.addf ((a : FVec F S100000x64 .f32) (ix2 r q))
      (broadcastInDim (⟨2, ![100000, 64]⟩ : Shape) ![0, 1] Cert.ReferenceIdeal.Gen.bcast_S1x64_S100000x64_0_1 (broadcastInDim (⟨2, ![1, 64]⟩ : Shape) ![1] Cert.ReferenceIdeal.Gen.bcast_S64_S1x64_1 (b : FVec F S64 .f32)) (ix2 r q)) = _
  rw [Cert.LibColumn.bid_1b_ab_apply, Cert.LibColumn.bid_b_1b_apply]

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed5_eq (c : Dev nD) (b : (⟨S64, .f32⟩ : BufTy).Contents (Elt F))
    (hb : V c main_v76 = broadcastInDim S1x64 ![1] Cert.ReferenceIdeal.Gen.bcast_S64_S1x64_1 b) (t : Fin cfg5.N) :
    (dat5 (F := F) V c).flushed 2 t = ((cfg5.win 2).blk t).view.read (Elt F) (Cert.ReferenceIdeal.Spec.bias64 (V c main_v75) b) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e0, e1, e2, e3, e4, e5⟩ := idx_facts5 t
  have hN : cfg5.N = 10 := N_5
  have ht : t.val < 10 := hN ▸ t.isLt
  funext j
  obtain ⟨p, q, rfl⟩ : ∃ (p : Fin 10000) (q : Fin 64), j = ix2 p q := ⟨j 0, j 1, eq_ix2 j⟩
  show k5_pay1 (iblk5 V c 0 t) (iblk5 V c 1 t) (ix2 p q) = Cert.ReferenceIdeal.Spec.bias64 (V c main_v75) b (((cfg5.win 2).blk t).view.emb (ix2 p q))
  have he : ((cfg5.win 2).blk t).view.emb (ix2 p q) = ix2 (⟨t.val * 10000 + p.val, by have := p.isLt; omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  rw [he, pay5_apply, bias64_apply]
  have h0 : (iblk5 V c 0 t : FVec F S10000x64 .f32) (ix2 p q) = (V c main_v75 : FVec F S100000x64 .f32) (ix2 (⟨t.val * 10000 + p.val, by have := p.isLt; omega⟩ : Fin 100000) q) := by
    show (V c main_v75 : FVec F S100000x64 .f32) (((cfg5.win 0).blk t).view.emb (ix2 p q)) = _
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  have h1 : (iblk5 V c 1 t : FVec F S1x64 .f32) (ix2 (0 : Fin 1) q) = (b : FVec F S64 .f32) (ix1 q) := by
    show (V c main_v76 : FVec F S1x64 .f32) (((cfg5.win 1).blk t).view.emb (ix2 (0 : Fin 1) q)) = _
    rw [hb]
    refine Eq.trans (congrArg _ (funext fun a => Fin.ext ?_)) (Cert.LibColumn.bid_b_1b_apply (b := 64) b _ (0 : Fin 1) q)
    match a with
    | ⟨0, _⟩ => show win5_1.index t (0 : Fin 2) * 1 + 1 * 0 = 0; omega
    | ⟨1, _⟩ => show win5_1.index t (1 : Fin 2) * 64 + 1 * q.val = q.val; omega
  rw [h0, h1]

theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

theorem cover5 (i : S100000x64.Idx) : ∃ t : Fin cfg5.N, (cfg5.win 2).flush t = true ∧ i ∈ ((cfg5.win 2).blk t).view.set := by
  have hN : cfg5.N = 10 := N_5
  have hi0 : (i 0).val < 100000 := (i 0).isLt
  have hi1 : (i 1).val < 64 := (i 1).isLt
  refine ⟨⟨(i 0).val / 10000, by omega⟩, flush5_2 _, ?_⟩
  rw [mem_blk5]
  obtain ⟨e0, e1, e2, e3, e4, e5⟩ := idx_facts5 ⟨(i 0).val / 10000, by omega⟩
  intro a
  match a with
  | ⟨0, _⟩ =>
    show win5_2.index _ (0 : Fin 2) * 10000 ≤ (i 0).val ∧ (i 0).val < win5_2.index _ (0 : Fin 2) * 10000 + 10000
    rw [e4]; show (i 0).val / 10000 * 10000 ≤ (i 0).val ∧ (i 0).val < (i 0).val / 10000 * 10000 + 10000; omega
  | ⟨1, _⟩ =>
    show win5_2.index _ (1 : Fin 2) * 64 ≤ (i 1).val ∧ (i 1).val < win5_2.index _ (1 : Fin 2) * 64 + 64
    rw [e5]; omega

theorem bias5_val (c : Dev nD) (b : (⟨S64, .f32⟩ : BufTy).Contents (Elt F))
    (hb : V c main_v76 = broadcastInDim S1x64 ![1] Cert.ReferenceIdeal.Gen.bcast_S64_S1x64_1 b) :
    (dat5 (F := F) V c).arrAt 2 cfg5.N = Cert.ReferenceIdeal.Spec.bias64 (V c main_v75) b :=
  (dat5 V c).arrAt_eq_of_cover 2 (Cert.ReferenceIdeal.Spec.bias64 (V c main_v75) b) (fun t _ => flushed5_eq V c b hb t) cover5

end Cert.KernelIdeal.Hand

end
-- ==== Proof.ValPool.lean ====
import proofs.«410316_j20426864460069_3_alg».proof.Proof.Half6
import proofs.«410316_j20426864460069_3_alg».proof.Proof.Spec
import proofs.«410316_j20426864460069_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

def oh (x : BitVec 32) (g : Fin 512) : EReal := if x = BitVec.ofNat 32 g.val then 1 else 0

theorem onehot_word (x : BitVec 32) (g : Fin 512) :
    FloatOps.sitofp (F := Ideal) .f32 ((IntOp.cmpi .eq x (BitVec.ofNat 32 g.val)).setWidth 32) = oh x g := by
  unfold oh
  show (((((IntOp.cmpi .eq x (BitVec.ofNat 32 g.val)).setWidth 32).toInt : ℝ)) : EReal) = _
  by_cases h : x = BitVec.ofNat 32 g.val
  · rw [if_pos h, h]
    simp [IntOp.cmpi]
  · rw [if_neg h]
    have hb : (x == BitVec.ofNat 32 g.val) = false := by simpa using h
    simp [IntOp.cmpi, hb]

theorem toInt_eq_graph (x : BitVec 32) (g : Fin 512) : x.toInt = (g.val : Int) ↔ x = BitVec.ofNat 32 g.val := by
  have hg := g.isLt
  constructor
  · intro h
    apply BitVec.eq_of_toNat_eq
    rw [BitVec.toNat_ofNat]
    rw [BitVec.toInt_eq_toNat_cond] at h
    have := x.isLt
    split at h <;> omega
  · intro h
    rw [h, BitVec.toInt_eq_toNat_cond, BitVec.toNat_ofNat]
    have : g.val % 2 ^ 32 = g.val := Nat.mod_eq_of_lt (by omega)
    rw [this]
    split <;> omega

theorem lhs_pool_0 (i : S512x64.Idx) (q : dot_S5000x512_S5000x64_S512x64_0_0_1_1_n_n.contr.Idx) :
    (dot_S5000x512_S5000x64_S512x64_0_0_1_1_n_n.lhsIdx i q 0).val = (q ⟨0, by decide⟩).val :=
  dot_S5000x512_S5000x64_S512x64_0_0_1_1_n_n.lhsIdx_val_of_single rfl i q
theorem lhs_pool_1 (i : S512x64.Idx) (q : dot_S5000x512_S5000x64_S512x64_0_0_1_1_n_n.contr.Idx) :
    (dot_S5000x512_S5000x64_S512x64_0_0_1_1_n_n.lhsIdx i q 1).val = (i 0).val := by
  unfold DotDims.lhsIdx
  rw [dif_neg (show ¬(1 : Fin S5000x512.rank) ∈ dot_S5000x512_S5000x64_S512x64_0_0_1_1_n_n.lhsBatch by decide), dif_pos (show (1 : Fin S5000x512.rank) ∈ dot_S5000x512_S5000x64_S512x64_0_0_1_1_n_n.lhsNonContracting by decide)]
  rfl
theorem rhs_pool_0 (i : S512x64.Idx) (q : dot_S5000x512_S5000x64_S512x64_0_0_1_1_n_n.contr.Idx) :
    (dot_S5000x512_S5000x64_S512x64_0_0_1_1_n_n.rhsIdx i q 0).val = (q ⟨0, by decide⟩).val :=
  dot_S5000x512_S5000x64_S512x64_0_0_1_1_n_n.rhsIdx_val_of_single rfl i q
theorem rhs_pool_1 (i : S512x64.Idx) (q : dot_S5000x512_S5000x64_S512x64_0_0_1_1_n_n.contr.Idx) :
    (dot_S5000x512_S5000x64_S512x64_0_0_1_1_n_n.rhsIdx i q 1).val = (i 1).val := by
  unfold DotDims.rhsIdx
  rw [dif_neg (show ¬(1 : Fin S5000x64.rank) ∈ dot_S5000x512_S5000x64_S512x64_0_0_1_1_n_n.rhsBatch by decide), dif_pos (show (1 : Fin S5000x64.rank) ∈ dot_S5000x512_S5000x64_S512x64_0_0_1_1_n_n.rhsNonContracting by decide)]
  rfl

theorem k6_pay2_apply (b : Vec Ideal S5000x1 .i32) (h : Vec Ideal S5000x64 .f32) (a : Vec Ideal S512x64 .f32)
    (g : Fin 512) (f : Fin 64) :
    k6_pay2 (F := Ideal) b h a (ix2 g f) = a (ix2 g f) + ∑ r : Fin 5000, oh (b (ix2 r (0 : Fin 1))) g * h (ix2 r f) := by
  unfold k6_pay2
  simp only [shapeCast_self]
  rw [addf_apply]
  refine congrArg (a (ix2 g f) + ·) ?_
  simp only [matmul]
  rw [Ideal.matmul_constant_zero_apply, ← Equiv.sum_comp (contrEquiv1 dot_S5000x512_S5000x64_S512x64_0_0_1_1_n_n 5000 rfl rfl).symm]
  refine Finset.sum_congr rfl fun r _ => ?_
  have hk := contrEquiv1_symm_val dot_S5000x512_S5000x64_S512x64_0_0_1_1_n_n 5000 rfl rfl r
  have el : dot_S5000x512_S5000x64_S512x64_0_0_1_1_n_n.lhsIdx (ix2 g f) ((contrEquiv1 dot_S5000x512_S5000x64_S512x64_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x512_S5000x64_S512x64_0_0_1_1_n_n.rhsIdx (ix2 g f) ((contrEquiv1 dot_S5000x512_S5000x64_S512x64_0_0_1_1_n_n 5000 rfl rfl).symm r) = ix2 r f := funext fun a => Fin.ext (by
    match a with
    | ⟨0, _⟩ => exact (rhs_pool_0 _ _).trans hk
    | ⟨1, _⟩ => exact rhs_pool_1 _ _)
  rw [el, er, truncf_apply, truncf_apply, sitofp_apply, extui_apply]
  refine congrArg (· * h (ix2 r f)) ?_
  show FloatOps.sitofp (F := Ideal) .f32 ((IntOp.cmpi .eq (broadcastTo S5000x512 b broadcasts_S5000x1_S5000x512 (ix2 r g)) (iota .tc S5000x512 32 [1] iota_S5000x512_d1_w32 (ix2 r g))).setWidth 32) = _
  rw [iota_single_apply, Cert.LibColumn.broadcastTo_a1_ab_apply]
  exact onehot_word _ g

theorem k6_pay1_apply (i : S512x64.Idx) : k6_pay1 (F := Ideal) i = 0 := by
  unfold k6_pay1
  simp only [shapeCast_self]
  rw [broadcast_apply]
  exact Ideal.ofBits_zero_f32

section Blocks
variable {F : FTy → Type} [FloatOps F]
variable (V : (c : Dev nD) → (b : Ref sig .tc) → Buf (Elt F) ((c : Thread nD τ).loc b))

theorem batch_block (c : Dev nD) (t : Fin cfg6.N) (x : S5000x1.Idx) (k : S100000x1.Idx)
    (hk0 : (k 0).val = 5000 * t.val + (x 0).val) (hk1 : (k 1).val = (x 1).val) :
    (iblk6 V c 0 t : Vec F S5000x1 .i32) x = (V c main_v78 : S100000x1.Idx → Elt F .i32) k := by
  have hi : win6_0.index t 0 = t.val ∧ win6_0.index t 1 = 0 :=
    (by decide +kernel : ∀ t : Fin grid6.N, win6_0.index t 0 = t.val ∧ win6_0.index t 1 = 0) t
  unfold iblk6
  rw [View.read_apply]
  show V c main_v78 _ = V c main_v78 _
  congr 1
  funext a
  apply Fin.ext
  match a with
  | ⟨0, _⟩ => show win6_0.index t 0 * 5000 + 1 * (x 0).val = (k 0).val; rw [hi.1, hk0]; omega
  | ⟨1, _⟩ => show win6_0.index t 1 * 1 + 1 * (x 1).val = (k 1).val; rw [hi.2, hk1]; omega

theorem feature_block (c : Dev nD) (t : Fin cfg6.N) (x : S5000x64.Idx) (k : S100000x64.Idx)
    (hk0 : (k 0).val = 5000 * t.val + (x 0).val) (hk1 : (k 1).val = (x 1).val) :
    (iblk6 V c 1 t : Vec F S5000x64 .f32) x = (V c main_v77 : S100000x64.Idx → Elt F .f32) k := by
  have hi : win6_1.index t 0 = t.val ∧ win6_1.index t 1 = 0 :=
    (by decide +kernel : ∀ t : Fin grid6.N, win6_1.index t 0 = t.val ∧ win6_1.index t 1 = 0) t
  unfold iblk6
  rw [View.read_apply]
  show V c main_v77 _ = V c main_v77 _
  congr 1
  funext a
  apply Fin.ext
  match a with
  | ⟨0, _⟩ => show win6_1.index t 0 * 5000 + 1 * (x 0).val = (k 0).val; rw [hi.1, hk0]; omega
  | ⟨1, _⟩ => show win6_1.index t 1 * 64 + 1 * (x 1).val = (k 1).val; rw [hi.2, hk1]; omega

end Blocks

section Column
variable {F : FTy → Type} [FloatOps F]

theorem column_apply {α : Type} (bt : S100000.Idx → α) (n : Fin 100000) (u : Fin 1) :
    broadcastInDim S100000x1 ![0] Cert.ReferenceIdeal.Gen.bcast_S100000_S100000x1_0 bt (ix2 n u) = bt (ix1 n) :=
  broadcastInDim_apply _ Cert.ReferenceIdeal.Gen.bcast_S100000_S100000x1_0 bt (ix2 n u) (ix1 n) (fun a => match a with
    | ⟨0, _⟩ => by show n.val = if (100000 : Nat) = 1 then 0 else n.val; rw [if_neg (by decide)])

theorem col_eq (bt : (⟨S100000, .i32⟩ : BufTy).Contents (Elt F)) :
    (shapeCast S100000x1 bt shapeCasts_S100000_S100000x1 : (⟨S100000x1, .i32⟩ : BufTy).Contents (Elt F))
      = broadcastInDim S100000x1 ![0] Cert.ReferenceIdeal.Gen.bcast_S100000_S100000x1_0 bt := by
  funext j
  obtain ⟨n, u, rfl⟩ : ∃ (n : Fin 100000) (u : Fin 1), j = ix2 n u := ⟨j 0, j 1, eq_ix2 j⟩
  rw [column_apply]
  exact Cert.LibColumn.shapeCast_a_a1_apply bt shapeCasts_S100000_S100000x1 n u

end Column

def row (t : Fin 20) (r : Fin 5000) : Fin 100000 := ⟨5000 * t.val + r.val, by have := t.isLt; have := r.isLt; omega⟩

def blockSum (bt : S100000.Idx → BitVec 32) (h : S100000x64.Idx → EReal) (g : Fin 512) (f : Fin 64) (t : ℕ) : EReal :=
  if ht : t < 20 then ∑ r : Fin 5000, oh (bt (ix1 (row ⟨t, ht⟩ r))) g * h (ix2 (row ⟨t, ht⟩ r) f) else 0

section Run
variable (V : (c : Dev nD) → (b : Ref sig .tc) → Buf (Elt Ideal) ((c : Thread nD τ).loc b))

theorem acc6_apply (c : Dev nD) (bt : (⟨S100000, .i32⟩ : BufTy).Contents (Elt Ideal))
    (hbt : V c main_v78 = broadcastInDim S100000x1 ![0] Cert.ReferenceIdeal.Gen.bcast_S100000_S100000x1_0 bt)
    (g : Fin 512) (f : Fin 64) :
    ∀ n : ℕ, n ≤ 20 → acc6 (F := Ideal) V c n (ix2 g f)
      = ∑ t ∈ Finset.range n, blockSum bt (V c main_v77 : S100000x64.Idx → EReal) g f t
  | 0, _ => by
    rw [acc6_zero, Finset.sum_range_zero]
    exact k6_pay1_apply _
  | n + 1, hn => by
    have hn' : n < cfg6.N := by rw [show cfg6.N = 20 from N_6]; omega
    have h20 : n < 20 := by omega
    have ih := acc6_apply c bt hbt g f n (by omega)
    rw [Finset.sum_range_succ, ← ih]
    refine ((congrFun (acc6_succ V c ⟨n, hn'⟩) (ix2 g f)).trans (k6_pay2_apply _ _ _ g f)).trans ?_
    refine congrArg (acc6 (F := Ideal) V c n (ix2 g f) + ·) ?_
    unfold blockSum
    rw [dif_pos h20]
    refine Finset.sum_congr rfl fun r _ => ?_
    have e0 : (iblk6 V c 0 ⟨n, hn'⟩ : Vec Ideal S5000x1 .i32) (ix2 r (0 : Fin 1)) = bt (ix1 (row ⟨n, h20⟩ r)) := by
      rw [batch_block V c ⟨n, hn'⟩ (ix2 r (0 : Fin 1)) (ix2 (row ⟨n, h20⟩ r) (0 : Fin 1)) rfl rfl, hbt]
      exact column_apply bt _ _
    have e1 : (iblk6 V c 1 ⟨n, hn'⟩ : Vec Ideal S5000x64 .f32) (ix2 r f) = (V c main_v77 : S100000x64.Idx → EReal) (ix2 (row ⟨n, h20⟩ r) f) :=
      feature_block V c ⟨n, hn'⟩ (ix2 r f) (ix2 (row ⟨n, h20⟩ r) f) rfl rfl
    rw [e0, e1]

end Run

section Scatter

theorem start_row {w : ℕ} (idx : IVec S100000x1 w) (j : S100000x64.Idx) :
    Cert.ReferenceIdeal.scatter_S512x64_S100000x1_S100000x64_1_0_0_1.start j idx 0 = (idx (ix2 (j 0) (0 : Fin 1))).toInt := by
  unfold ScatterDims.start
  rw [dif_pos (show (0 : Fin S512x64.rank) ∈ Cert.ReferenceIdeal.scatter_S512x64_S100000x1_S100000x64_1_0_0_1.scatterDimsToOperandDims by decide)]
  refine congrArg (fun k => (idx k).toInt) (funext fun b => Fin.ext ?_)
  match b with
  | ⟨0, _⟩ => rfl
  | ⟨1, _⟩ => rfl

theorem start_col {w : ℕ} (idx : IVec S100000x1 w) (j : S100000x64.Idx) :
    Cert.ReferenceIdeal.scatter_S512x64_S100000x1_S100000x64_1_0_0_1.start j idx 1 = 0 := by
  unfold ScatterDims.start
  rw [dif_neg (show ¬(1 : Fin S512x64.rank) ∈ Cert.ReferenceIdeal.scatter_S512x64_S100000x1_S100000x64_1_0_0_1.scatterDimsToOperandDims by decide)]

theorem window_row (j : S100000x64.Idx) :
    Cert.ReferenceIdeal.scatter_S512x64_S100000x1_S100000x64_1_0_0_1.window j 0 = 0 := by
  unfold ScatterDims.window
  rw [dif_neg (show ¬(0 : Fin S512x64.rank) ∈ Cert.ReferenceIdeal.scatter_S512x64_S100000x1_S100000x64_1_0_0_1.sKept by decide)]

theorem window_col (j : S100000x64.Idx) :
    Cert.ReferenceIdeal.scatter_S512x64_S100000x1_S100000x64_1_0_0_1.window j 1 = (j 1).val := by
  unfold ScatterDims.window
  rw [dif_pos (show (1 : Fin S512x64.rank) ∈ Cert.ReferenceIdeal.scatter_S512x64_S100000x1_S100000x64_1_0_0_1.sKept by decide)]
  rfl

theorem lands_iff (bt : S100000.Idx → BitVec 32) (n : Fin 100000) (f' : Fin 64) (g : Fin 512) (f : Fin 64) :
    Cert.ReferenceIdeal.scatter_S512x64_S100000x1_S100000x64_1_0_0_1.resultIdx? (ix2 n f')
        (broadcastInDim S100000x1 ![0] Cert.ReferenceIdeal.Gen.bcast_S100000_S100000x1_0 bt) = some (ix2 g f)
      ↔ bt (ix1 n) = BitVec.ofNat 32 g.val ∧ f' = f := by
  have hs0 : Cert.ReferenceIdeal.scatter_S512x64_S100000x1_S100000x64_1_0_0_1.start (ix2 n f')
      (broadcastInDim S100000x1 ![0] Cert.ReferenceIdeal.Gen.bcast_S100000_S100000x1_0 bt) 0 = (bt (ix1 n)).toInt :=
    (start_row _ _).trans (congrArg BitVec.toInt (column_apply bt n 0))
  have hs1 := start_col (broadcastInDim S100000x1 ![0] Cert.ReferenceIdeal.Gen.bcast_S100000_S100000x1_0 bt) (ix2 n f')
  have hw0 := window_row (ix2 n f')
  have hw1 : Cert.ReferenceIdeal.scatter_S512x64_S100000x1_S100000x64_1_0_0_1.window (ix2 n f') 1 = f'.val := window_col (ix2 n f')
  have hg := g.isLt
  have hf' := f'.isLt
  rw [← toInt_eq_graph]
  unfold ScatterDims.resultIdx?
  split
  · rename_i h
    constructor
    · intro e
      have e' := Option.some.inj e
      have e0 : (Cert.ReferenceIdeal.scatter_S512x64_S100000x1_S100000x64_1_0_0_1.start (ix2 n f') (broadcastInDim S100000x1 ![0] Cert.ReferenceIdeal.Gen.bcast_S100000_S100000x1_0 bt) 0 + (Cert.ReferenceIdeal.scatter_S512x64_S100000x1_S100000x64_1_0_0_1.window (ix2 n f') 0 : ℕ)).toNat = g.val :=
        congrArg (fun q : S512x64.Idx => (q 0).val) e'
      have e1 : (Cert.ReferenceIdeal.scatter_S512x64_S100000x1_S100000x64_1_0_0_1.start (ix2 n f') (broadcastInDim S100000x1 ![0] Cert.ReferenceIdeal.Gen.bcast_S100000_S100000x1_0 bt) 1 + (Cert.ReferenceIdeal.scatter_S512x64_S100000x1_S100000x64_1_0_0_1.window (ix2 n f') 1 : ℕ)).toNat = f.val :=
        congrArg (fun q : S512x64.Idx => (q 1).val) e'
      have h0 := (h 0).1
      have h1 := (h 1).1
      rw [hs0, hw0] at e0 h0
      rw [hs1, hw1] at e1 h1
      exact ⟨by omega, Fin.ext (by omega)⟩
    · rintro ⟨e0, rfl⟩
      refine congrArg some (funext fun a => Fin.ext ?_)
      match a with
      | ⟨0, _⟩ =>
        show (Cert.ReferenceIdeal.scatter_S512x64_S100000x1_S100000x64_1_0_0_1.start (ix2 n f') (broadcastInDim S100000x1 ![0] Cert.ReferenceIdeal.Gen.bcast_S100000_S100000x1_0 bt) 0 + (Cert.ReferenceIdeal.scatter_S512x64_S100000x1_S100000x64_1_0_0_1.window (ix2 n f') 0 : ℕ)).toNat = g.val
        rw [hs0, hw0, e0]; omega
      | ⟨1, _⟩ =>
        show (Cert.ReferenceIdeal.scatter_S512x64_S100000x1_S100000x64_1_0_0_1.start (ix2 n f') (broadcastInDim S100000x1 ![0] Cert.ReferenceIdeal.Gen.bcast_S100000_S100000x1_0 bt) 1 + (Cert.ReferenceIdeal.scatter_S512x64_S100000x1_S100000x64_1_0_0_1.window (ix2 n f') 1 : ℕ)).toNat = f'.val
        rw [hs1, hw1]; omega
  · rename_i h
    constructor
    · intro e; cases e
    · rintro ⟨e0, rfl⟩
      refine absurd (fun a => ?_) h
      match a with
      | ⟨0, _⟩ =>
        show 0 ≤ Cert.ReferenceIdeal.scatter_S512x64_S100000x1_S100000x64_1_0_0_1.start (ix2 n f') (broadcastInDim S100000x1 ![0] Cert.ReferenceIdeal.Gen.bcast_S100000_S100000x1_0 bt) 0 + (Cert.ReferenceIdeal.scatter_S512x64_S100000x1_S100000x64_1_0_0_1.window (ix2 n f') 0 : ℕ) ∧ Cert.ReferenceIdeal.scatter_S512x64_S100000x1_S100000x64_1_0_0_1.start (ix2 n f') (broadcastInDim S100000x1 ![0] Cert.ReferenceIdeal.Gen.bcast_S100000_S100000x1_0 bt) 0 + (Cert.ReferenceIdeal.scatter_S512x64_S100000x1_S100000x64_1_0_0_1.window (ix2 n f') 0 : ℕ) < (512 : ℕ)
        rw [hs0, hw0, e0]; omega
      | ⟨1, _⟩ =>
        show 0 ≤ Cert.ReferenceIdeal.scatter_S512x64_S100000x1_S100000x64_1_0_0_1.start (ix2 n f') (broadcastInDim S100000x1 ![0] Cert.ReferenceIdeal.Gen.bcast_S100000_S100000x1_0 bt) 1 + (Cert.ReferenceIdeal.scatter_S512x64_S100000x1_S100000x64_1_0_0_1.window (ix2 n f') 1 : ℕ) ∧ Cert.ReferenceIdeal.scatter_S512x64_S100000x1_S100000x64_1_0_0_1.start (ix2 n f') (broadcastInDim S100000x1 ![0] Cert.ReferenceIdeal.Gen.bcast_S100000_S100000x1_0 bt) 1 + (Cert.ReferenceIdeal.scatter_S512x64_S100000x1_S100000x64_1_0_0_1.window (ix2 n f') 1 : ℕ) < (64 : ℕ)
        rw [hs1, hw1]; omega

end Scatter

theorem pool_apply (bt : (⟨S100000, .i32⟩ : BufTy).Contents (Elt Ideal)) (h : (⟨S100000x64, .f32⟩ : BufTy).Contents (Elt Ideal))
    (g : Fin 512) (f : Fin 64) :
    Cert.ReferenceIdeal.Spec.pool (F := Ideal) bt h (ix2 g f) = ∑ n : Fin 100000, oh (bt (ix1 n)) g * h (ix2 n f) := by
  unfold Cert.ReferenceIdeal.Spec.pool Host.scatterAdd
  rw [Ideal.hostScatterAdd_def]
  unfold Ideal.hostScatterAdd
  have hz : broadcastInDim Cert.ReferenceIdeal.S512x64 ![] Cert.ReferenceIdeal.Gen.bcast_S_S512x64 (constant (F := Ideal) Cert.ReferenceIdeal.S_ .f32 0x00000000#32) (ix2 g f) = 0 :=
    (broadcastInDim_apply _ Cert.ReferenceIdeal.Gen.bcast_S_S512x64 _ (ix2 g f) ix0 (fun a => a.elim0)).trans Ideal.ofBits_zero_f32
  rw [hz, zero_add, Finset.sum_filter, sum_idx2]
  refine Finset.sum_congr rfl fun n _ => ?_
  refine (Finset.sum_congr rfl fun f' _ => if_congr (lands_iff bt n f' g f) rfl rfl).trans ?_
  unfold oh
  by_cases hb : bt (ix1 n) = BitVec.ofNat 32 g.val
  · simp only [hb, true_and, if_true, one_mul]
    rw [Finset.sum_ite_eq' Finset.univ f (fun f' => h (ix2 n f')), if_pos (Finset.mem_univ f)]
  · simp only [hb, false_and, if_false, zero_mul, Finset.sum_const_zero]

theorem sum_rows {M : Type*} [AddCommMonoid M] (φ : Fin 100000 → M) :
    ∑ n, φ n = ∑ t : Fin 20, ∑ r : Fin 5000, φ (row t r) := by
  calc ∑ n, φ n = ∑ p : Fin 20 × Fin 5000, φ (finProdFinEquiv p) :=
        (Equiv.sum_comp (finProdFinEquiv (m := 20) (n := 5000)) φ).symm
    _ = ∑ t : Fin 20, ∑ r : Fin 5000, φ (finProdFinEquiv (t, r)) := Fintype.sum_prod_type _
    _ = _ := Finset.sum_congr rfl fun t _ => Finset.sum_congr rfl fun r _ => congrArg φ (Fin.ext (by
        show r.val + 5000 * t.val = 5000 * t.val + r.val
        omega))

theorem blocks_sum (bt : S100000.Idx → BitVec 32) (h : S100000x64.Idx → EReal) (g : Fin 512) (f : Fin 64) :
    ∑ t ∈ Finset.range 20, blockSum bt h g f t = ∑ n : Fin 100000, oh (bt (ix1 n)) g * h (ix2 n f) := by
  rw [Finset.sum_range, sum_rows]
  refine Finset.sum_congr rfl fun t _ => ?_
  unfold blockSum
  rw [dif_pos t.isLt]

section Final
variable (V : (c : Dev nD) → (b : Ref sig .tc) → Buf (Elt Ideal) ((c : Thread nD τ).loc b))

abbrev pooled (c : Dev nD) : Buf (Elt Ideal) ((c : Thread nD τ).loc main_v79) := acc6 (F := Ideal) V c 20

abbrev tLast : Fin cfg6.N := ⟨19, by decide⟩

theorem pool_flushed (c : Dev nD) (t : Fin cfg6.N) (hf : (cfg6.win 2).flush t = true) :
    (dat6 (F := Ideal) V c).flushed 2 t = ((cfg6.win 2).blk t).view.read (Elt Ideal) (pooled V c) := by
  have hN : cfg6.N = 20 := N_6
  have h1 : t.val = 19 := by have := (flush6_2 t).mp hf; have := t.isLt; omega
  obtain rfl : t = tLast := Fin.ext h1
  show (cfg6.win 2).cut (grid6.coords tLast) ((dat6 (F := Ideal) V c).after 2 tLast) = _
  rw [after6_2]
  have hz' : (fun a => win6_2.index tLast a * main_v79.ty.shape.size a) = fun _ => 0 := funext fun a => by fin_cases a <;> decide
  exact (Memref.read_access_unit_zero (Elt Ideal) main_v79 hz' (fun a => by rw [congrFun hz' a]; simp) (pooled V c)).symm

theorem pool_final (c : Dev nD) : (dat6 (F := Ideal) V c).arrAt 2 cfg6.N = pooled V c :=
  (dat6 (F := Ideal) V c).arrAt_eq_of_cover 2 (pooled V c) (pool_flushed V c) fun i =>
    ⟨tLast, (flush6_2 tLast).mpr rfl, by
      show i ∈ ((View.whole main_v79).slice (win6_2.rect tLast)).set
      rw [View.set_slice_whole, Rect.mem_set_unit]
      intro a
      have h0 : (i 0 : Nat) < 512 := (i 0).isLt
      have h1 : (i 1 : Nat) < 64 := (i 1).isLt
      match a with
      | ⟨0, _⟩ => show win6_2.index tLast 0 * win6_2.size 0 ≤ (i 0 : Nat) ∧ (i 0 : Nat) < win6_2.index tLast 0 * win6_2.size 0 + win6_2.xsize (grid6.coords tLast) 0
                  rw [show win6_2.index tLast 0 * win6_2.size 0 = 0 from by decide +kernel, show win6_2.xsize (grid6.coords tLast) 0 = 512 from by decide +kernel]; omega
      | ⟨1, _⟩ => show win6_2.index tLast 1 * win6_2.size 1 ≤ (i 1 : Nat) ∧ (i 1 : Nat) < win6_2.index tLast 1 * win6_2.size 1 + win6_2.xsize (grid6.coords tLast) 1
                  rw [show win6_2.index tLast 1 * win6_2.size 1 = 0 from by decide +kernel, show win6_2.xsize (grid6.coords tLast) 1 = 64 from by decide +kernel]; omega⟩

-- the indicator product summed over the row blocks is the sum of each graph's rows
theorem pool_val (c : Dev nD) (bt : (⟨S100000, .i32⟩ : BufTy).Contents (Elt Ideal))
    (hbt : V c main_v78 = broadcastInDim S100000x1 ![0] Cert.ReferenceIdeal.Gen.bcast_S100000_S100000x1_0 bt) :
    (dat6 (F := Ideal) V c).arrAt 2 cfg6.N = Cert.ReferenceIdeal.Spec.pool (F := Ideal) bt (V c main_v77) := by
  rw [pool_final]
  funext i
  obtain ⟨g, f, rfl⟩ : ∃ (g : Fin 512) (f : Fin 64), i = ix2 g f := ⟨i 0, i 1, eq_ix2 i⟩
  rw [pool_apply]
  exact (acc6_apply V c bt hbt g f 20 (le_refl _)).trans (blocks_sum _ _ g f)

end Final

end Cert.KernelIdeal.Hand
end
-- ==== Proof.ValMlp.lean ====
import proofs.«410316_j20426864460069_3_alg».proof.Proof.Half7
import proofs.«410316_j20426864460069_3_alg».proof.Proof.Spec
import proofs.«410316_j20426864460069_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Arr
variable {F : FTy → Type} [FloatOps F]
variable (V : (c : Dev nD) → (b : Ref sig .tc) → Buf (Elt F) ((c : Thread nD τ).loc b))

theorem hz7 : (![0, 0] : Fin 2 → Nat) = fun _ => 0 := funext fun a => by fin_cases a <;> rfl

theorem iblk7_0_eq (c : Dev nD) (t : Fin cfg7.N) : (iblk7 V c 0 t : Vec F S512x64 .f32) = (V c main_v79 : Vec F S512x64 .f32) := by
  unfold iblk7
  have hz' : (fun a => win7_0.index t a * main_v79.ty.shape.size a) = fun _ => 0 := funext fun a => by fin_cases a <;> rfl
  exact Memref.read_access_unit_zero (Elt F) main_v79 hz' (fun a => by rw [congrFun hz' a]; simp) (V c main_v79)

theorem iblk7_1_eq (c : Dev nD) (t : Fin cfg7.N) : (iblk7 V c 1 t : Vec F S64x32 .f32) = (V c main_arg9 : Vec F S64x32 .f32) := by
  unfold iblk7
  have hz' : (fun a => win7_1.index t a * main_arg9.ty.shape.size a) = fun _ => 0 := funext fun a => by fin_cases a <;> rfl
  exact Memref.read_access_unit_zero (Elt F) main_arg9 hz' (fun a => by rw [congrFun hz' a]; simp) (V c main_arg9)

theorem iblk7_2_eq (c : Dev nD) (t : Fin cfg7.N) : (iblk7 V c 2 t : Vec F S1x32 .f32) = (V c main_v80 : Vec F S1x32 .f32) := by
  unfold iblk7
  have hz' : (fun a => win7_2.index t a * main_v80.ty.shape.size a) = fun _ => 0 := funext fun a => by fin_cases a <;> rfl
  exact Memref.read_access_unit_zero (Elt F) main_v80 hz' (fun a => by rw [congrFun hz' a]; simp) (V c main_v80)

theorem iblk7_3_eq (c : Dev nD) (t : Fin cfg7.N) : (iblk7 V c 3 t : Vec F S32x5 .f32) = (V c main_arg11 : Vec F S32x5 .f32) := by
  unfold iblk7
  have hz' : (fun a => win7_3.index t a * main_arg11.ty.shape.size a) = fun _ => 0 := funext fun a => by fin_cases a <;> rfl
  exact Memref.read_access_unit_zero (Elt F) main_arg11 hz' (fun a => by rw [congrFun hz' a]; simp) (V c main_arg11)

theorem iblk7_4_eq (c : Dev nD) (t : Fin cfg7.N) : (iblk7 V c 4 t : Vec F S1x5 .f32) = (V c main_v81 : Vec F S1x5 .f32) := by
  unfold iblk7
  have hz' : (fun a => win7_4.index t a * main_v81.ty.shape.size a) = fun _ => 0 := funext fun a => by fin_cases a <;> rfl
  exact Memref.read_access_unit_zero (Elt F) main_v81 hz' (fun a => by rw [congrFun hz' a]; simp) (V c main_v81)

theorem flushed7_eq (c : Dev nD) (t : Fin cfg7.N) :
    (dat7 V c).flushed 5 t = ((cfg7.win 5).blk t).view.read (Elt F) (k7_pay1 (V c main_v79) (V c main_arg9) (V c main_v80) (V c main_arg11) (V c main_v81)) := by
  show (cfg7.win 5).cut (grid7.coords t) ((dat7 V c).after 5 t) = _
  rw [after7_5]
  unfold out7_5
  rw [View.canon_unit_zero hz7]
  simp only [View.ld_unit_zero (S := S512x64) hz7, View.ld_unit_zero (S := S64x32) hz7, View.ld_unit_zero (S := S1x32) hz7, View.ld_unit_zero (S := S32x5) hz7, View.ld_unit_zero (S := S1x5) hz7]
  rw [iblk7_0_eq, iblk7_1_eq, iblk7_2_eq, iblk7_3_eq, iblk7_4_eq]
  have hz' : (fun a => win7_5.index t a * main_v82.ty.shape.size a) = fun _ => 0 := funext fun a => by fin_cases a <;> rfl
  exact (Memref.read_access_unit_zero (Elt F) main_v82 hz' (fun a => by rw [congrFun hz' a]; simp) _).symm

theorem mlp_arr (c : Dev nD) : (dat7 (F := F) V c).arrAt 5 cfg7.N = k7_pay1 (V c main_v79) (V c main_arg9) (V c main_v80) (V c main_arg11) (V c main_v81) :=
  (dat7 V c).arrAt_eq_of_cover 5 _ (fun t _ => flushed7_eq V c t) fun i =>
    ⟨t7_0, flush7_5 t7_0, by
      show i ∈ ((View.whole main_v82).slice (win7_5.rect t7_0)).set
      rw [View.set_slice_whole, Rect.mem_set_unit]
      intro a
      have h0 : (i 0 : Nat) < 512 := (i 0).isLt
      have h1 : (i 1 : Nat) < 5 := (i 1).isLt
      match a with
      | ⟨0, _⟩ => show win7_5.index t7_0 0 * win7_5.size 0 ≤ (i 0 : Nat) ∧ (i 0 : Nat) < win7_5.index t7_0 0 * win7_5.size 0 + win7_5.xsize (grid7.coords t7_0) 0
                  rw [show win7_5.index t7_0 0 * win7_5.size 0 = 0 from rfl, show win7_5.xsize (grid7.coords t7_0) 0 = 512 from rfl]; omega
      | ⟨1, _⟩ => show win7_5.index t7_0 1 * win7_5.size 1 ≤ (i 1 : Nat) ∧ (i 1 : Nat) < win7_5.index t7_0 1 * win7_5.size 1 + win7_5.xsize (grid7.coords t7_0) 1
                  rw [show win7_5.index t7_0 1 * win7_5.size 1 = 0 from rfl, show win7_5.xsize (grid7.coords t7_0) 1 = 5 from rfl]; omega⟩

end Arr

section Layout
variable {α : Type}

theorem rowDown_eq {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩)
    (h : (⟨2, ![1, b]⟩ : Shape).BroadcastsInDim ⟨2, ![a, b]⟩ (![0, 1] : Fin 2 → Fin 2)) :
    broadcastTo ⟨2, ![a, b]⟩ (shapeCast ⟨2, ![1, b]⟩ v hs) hb = broadcastInDim ⟨2, ![a, b]⟩ ![0, 1] h v := by
  rw [shapeCast_self]
  funext i
  obtain ⟨p, c, rfl⟩ : ∃ (p : Fin a) (c : Fin b), i = ix2 p c := ⟨i 0, i 1, eq_ix2 i⟩
  exact (broadcastTo_1b_ab_apply v hb p c).trans (Cert.LibColumn.bid_1b_ab_apply v h p c).symm

end Layout

section Rows
variable {F : FTy → Type} [FloatOps F]

theorem row32'_eq (b : (⟨S32, .f32⟩ : BufTy).Contents (Elt F)) :
    (shapeCast S1x32 b shapeCasts_S32_S1x32 : (⟨S1x32, .f32⟩ : BufTy).Contents (Elt F))
      = broadcastInDim S1x32 ![1] Cert.ReferenceIdeal.Gen.bcast_S32_S1x32_1 b := by
  funext i
  obtain ⟨u, c, rfl⟩ : ∃ (u : Fin 1) (c : Fin 32), i = ix2 u c := ⟨i 0, i 1, eq_ix2 i⟩
  exact (shapeCast_a_1a_apply b _ u c).trans (Cert.LibColumn.bid_b_1b_apply b _ u c).symm

theorem row5_eq (b : (⟨S5, .f32⟩ : BufTy).Contents (Elt F)) :
    (shapeCast S1x5 b shapeCasts_S5_S1x5 : (⟨S1x5, .f32⟩ : BufTy).Contents (Elt F))
      = broadcastInDim S1x5 ![1] Cert.ReferenceIdeal.Gen.bcast_S5_S1x5_1 b := by
  funext i
  obtain ⟨u, c, rfl⟩ : ∃ (u : Fin 1) (c : Fin 5), i = ix2 u c := ⟨i 0, i 1, eq_ix2 i⟩
  exact (shapeCast_a_1a_apply b _ u c).trans (Cert.LibColumn.bid_b_1b_apply b _ u c).symm

end Rows

section Products

theorem kmm1_apply {φ₁ φ₂ : FTy} (x : FVec Ideal S512x64 φ₁) (w : FVec Ideal S64x32 φ₂) (r : Fin 512) (j : Fin 32) :
    matmul dot_S512x64_S64x32_S512x32_1_0_0_1_n_n none x w (constant S512x32 .f32 0x00000000#32) (ix2 r j) = ∑ k : Fin 64, x (ix2 r k) * w (ix2 k j) := by
  simp only [matmul]
  rw [Ideal.matmul_constant_zero_apply]
  exact Cert.LibColumn.dot2_sum dot_S512x64_S64x32_S512x32_1_0_0_1_n_n rfl rfl rfl rfl rfl rfl rfl rfl x w r j

theorem kmm2_apply {φ₁ φ₂ : FTy} (x : FVec Ideal S512x32 φ₁) (w : FVec Ideal S32x5 φ₂) (r : Fin 512) (j : Fin 5) :
    matmul dot_S512x32_S32x5_S512x5_1_0_0_1_n_n none x w (constant S512x5 .f32 0x00000000#32) (ix2 r j) = ∑ k : Fin 32, x (ix2 r k) * w (ix2 k j) := by
  simp only [matmul]
  rw [Ideal.matmul_constant_zero_apply]
  exact Cert.LibColumn.dot2_sum dot_S512x32_S32x5_S512x5_1_0_0_1_n_n rfl rfl rfl rfl rfl rfl rfl rfl x w r j

theorem hmm1_apply (x : FVec Ideal S512x64 .f32) (w : FVec Ideal S64x32 .f32) (r : Fin 512) (j : Fin 32) :
    Host.dotGeneral Cert.ReferenceIdeal.dot_S512x64_S64x32_S512x32_1_0_0_1_n_n none x w (ix2 r j) = ∑ k : Fin 64, x (ix2 r k) * w (ix2 k j) := by
  simp only [Host.dotGeneral]
  rw [Ideal.dotGeneral_apply]
  exact Cert.LibColumn.dot2_sum Cert.ReferenceIdeal.dot_S512x64_S64x32_S512x32_1_0_0_1_n_n rfl rfl rfl rfl rfl rfl rfl rfl x w r j

theorem hmm2_apply (x : FVec Ideal S512x32 .f32) (w : FVec Ideal S32x5 .f32) (r : Fin 512) (j : Fin 5) :
    Host.dotGeneral Cert.ReferenceIdeal.dot_S512x32_S32x5_S512x5_1_0_0_1_n_n none x w (ix2 r j) = ∑ k : Fin 32, x (ix2 r k) * w (ix2 k j) := by
  simp only [Host.dotGeneral]
  rw [Ideal.dotGeneral_apply]
  exact Cert.LibColumn.dot2_sum Cert.ReferenceIdeal.dot_S512x32_S32x5_S512x5_1_0_0_1_n_n rfl rfl rfl rfl rfl rfl rfl rfl x w r j

theorem mm1_eq (p : FVec Ideal S512x64 .f32) (W : FVec Ideal S64x32 .f32) :
    matmul dot_S512x64_S64x32_S512x32_1_0_0_1_n_n none (truncf .bf16 (shapeCast S512x64 p shapeCasts_S512x64_S512x64) bitsLt_bf16_f32) (truncf .bf16 W bitsLt_bf16_f32) (constant S512x32 .f32 0x00000000#32)
      = Host.dotGeneral Cert.ReferenceIdeal.dot_S512x64_S64x32_S512x32_1_0_0_1_n_n none p W := by
  rw [shapeCast_self]
  funext i
  obtain ⟨r, j, rfl⟩ : ∃ (r : Fin 512) (j : Fin 32), i = ix2 r j := ⟨i 0, i 1, eq_ix2 i⟩
  rw [kmm1_apply, hmm1_apply]
  rfl

theorem mm2_eq (h : FVec Ideal S512x32 .f32) (W : FVec Ideal S32x5 .f32) :
    matmul dot_S512x32_S32x5_S512x5_1_0_0_1_n_n none (truncf .bf16 h bitsLt_bf16_f32) (truncf .bf16 W bitsLt_bf16_f32) (constant S512x5 .f32 0x00000000#32)
      = Host.dotGeneral Cert.ReferenceIdeal.dot_S512x32_S32x5_S512x5_1_0_0_1_n_n none h W := by
  funext i
  obtain ⟨r, j, rfl⟩ : ∃ (r : Fin 512) (j : Fin 5), i = ix2 r j := ⟨i 0, i 1, eq_ix2 i⟩
  rw [kmm2_apply, hmm2_apply]
  rfl

end Products

section Reductions
variable {φ : FTy}

theorem maxAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (t : Fin b) :
    multiReduction .maximumf [0] ⟨1, ![b]⟩ v acc h hφ hacc (ix1 t)
      = (Finset.univ : Finset (Fin a)).fold max (Ideal.ofBits φ acc) (fun k => v (ix2 k t)) :=
  (Ideal.multiReduction_maximumf_single v acc h hφ hacc (ix1 t)).trans
    (congrArg (fun f => (Finset.univ : Finset (Fin a)).fold max (Ideal.ofBits φ acc) f)
      (funext fun k => congrArg v (Cert.LibColumn.lift_axis0 h t k)))

theorem hostMaxAxis0_apply {a b : ℕ} {u : Shape} (x : FVec Ideal ⟨2, ![a, b]⟩ φ) (init : u.Idx → Ideal φ)
    (h' : (⟨2, ![a, b]⟩ : Shape).ReducesTo [0] (⟨1, ![b]⟩ : Shape))
    (h : (⟨2, ![a, b]⟩ : Shape).Reduces [0] (⟨1, ![b]⟩ : Shape)) (hu : 0 < u.numel) (t : Fin b) :
    Host.reduce FloatOps.maximumf x init h' hu (ix1 t)
      = (Finset.univ : Finset (Fin a)).fold max (init (Shape.Idx.first hu)) (fun k => x (ix2 k t)) :=
  (Host.reduce_eq_fold_single FloatOps.maximumf x init h' h hu (ix1 t)).trans
    (congrArg (fun f => (Finset.univ : Finset (Fin a)).fold max (init (Shape.Idx.first hu)) f)
      (funext fun k => congrArg x (Cert.LibColumn.lift_axis0 h t k)))

theorem hostSumAxis0_apply {a b : ℕ} {u : Shape} (x : FVec Ideal ⟨2, ![a, b]⟩ φ) (init : u.Idx → Ideal φ)
    (h' : (⟨2, ![a, b]⟩ : Shape).ReducesTo [0] (⟨1, ![b]⟩ : Shape))
    (h : (⟨2, ![a, b]⟩ : Shape).Reduces [0] (⟨1, ![b]⟩ : Shape)) (hu : 0 < u.numel) (t : Fin b) :
    Host.reduceAdd x init h' hu (ix1 t) = init (Shape.Idx.first hu) + ∑ k : Fin a, x (ix2 k t) := by
  simp only [Host.reduceAdd, Ideal.hostReduceAdd_def]
  rw [Ideal.hostReduceAdd_single h' h]
  exact congrArg (_ + ·) (Finset.sum_congr rfl fun k _ => congrArg x (Cert.LibColumn.lift_axis0 h t k))

end Reductions

section Steps
variable {F : FTy → Type} [FloatOps F]

def khidden (v0 : Vec F S512x64 .f32) (v3 : Vec F S64x32 .f32) (v6 : Vec F S1x32 .f32) : FVec F S512x32 .f32 :=
  maximumf (addf (matmul dot_S512x64_S64x32_S512x32_1_0_0_1_n_n none (truncf .bf16 (shapeCast S512x64 v0 shapeCasts_S512x64_S512x64) bitsLt_bf16_f32) (truncf .bf16 v3 bitsLt_bf16_f32) (constant S512x32 .f32 0x00000000#32))
      (broadcastTo S512x32 (shapeCast S1x32 v6 shapeCasts_S1x32_S1x32) broadcasts_S1x32_S512x32))
    (broadcast S512x32 (Scalar.ofBits .f32 0x00000000#32))

def klogits (v0 : Vec F S512x64 .f32) (v3 : Vec F S64x32 .f32) (v6 : Vec F S1x32 .f32) (v13 : Vec F S32x5 .f32) (v16 : Vec F S1x5 .f32) : FVec F S512x5 .f32 :=
  addf (matmul dot_S512x32_S32x5_S512x5_1_0_0_1_n_n none (truncf .bf16 (khidden v0 v3 v6) bitsLt_bf16_f32) (truncf .bf16 v13 bitsLt_bf16_f32) (constant S512x5 .f32 0x00000000#32))
    (broadcastTo S512x5 (shapeCast S1x5 v16 shapeCasts_S1x5_S1x5) broadcasts_S1x5_S512x5)

def kcolmax (z : FVec F S512x5 .f32) : FVec F S512x5 .f32 :=
  broadcastTo S512x5 (shapeCast S1x5 (multiReduction .maximumf [0] S5 z 0xFF800000#32 reduces_S512x5_S5 (.inl rfl) rfl) shapeCasts_S5_S1x5) broadcasts_S1x5_S512x5

def ktail (z : FVec F S512x5 .f32) : FVec F S512x5 .f32 :=
  subf (subf z (kcolmax z))
    (broadcastTo S512x5 (log (shapeCast S1x5 (multiReduction .add [0] S5 (exp (subf z (kcolmax z))) 0x00000000#32 reduces_S512x5_S5 (.inl rfl) rfl) shapeCasts_S5_S1x5)) broadcasts_S1x5_S512x5)

theorem k7_pay1_eq (v0 : Vec F S512x64 .f32) (v3 : Vec F S64x32 .f32) (v6 : Vec F S1x32 .f32) (v13 : Vec F S32x5 .f32) (v16 : Vec F S1x5 .f32) :
    k7_pay1 v0 v3 v6 v13 v16 = ktail (klogits v0 v3 v6 v13 v16) := rfl

end Steps

section Value

theorem vlog_apply {s : Shape} {φ : FTy} (x : FVec Ideal s φ) (i : s.Idx) : log x i = Ideal.log (x i) := rfl
theorem hlog_apply {s : Shape} {φ : FTy} (x : FVec Ideal s φ) (i : s.Idx) : Host.log x i = Ideal.log (x i) := rfl

theorem zero32_eq : (broadcast S512x32 (Scalar.ofBits .f32 0x00000000#32) : FVec Ideal S512x32 .f32)
    = broadcastInDim S512x32 ![] Cert.ReferenceIdeal.Gen.bcast_S_S512x32 (constant S_ .f32 0x00000000#32) :=
  funext fun i => (Cert.LibColumn.bid_scalar_apply (constant (F := Ideal) S_ .f32 0x00000000#32) Cert.ReferenceIdeal.Gen.bcast_S_S512x32 i).symm

theorem khidden_eq (p : FVec Ideal S512x64 .f32) (W1 : FVec Ideal S64x32 .f32) (row : FVec Ideal S1x32 .f32) :
    khidden (F := Ideal) p W1 row = maximumf (addf (Host.dotGeneral Cert.ReferenceIdeal.dot_S512x64_S64x32_S512x32_1_0_0_1_n_n none p W1) (broadcastInDim S512x32 ![0, 1] Cert.ReferenceIdeal.Gen.bcast_S1x32_S512x32_0_1 row)) (broadcastInDim S512x32 ![] Cert.ReferenceIdeal.Gen.bcast_S_S512x32 (constant S_ .f32 0x00000000#32)) := by
  unfold khidden
  rw [mm1_eq, rowDown_eq row shapeCasts_S1x32_S1x32 broadcasts_S1x32_S512x32 Cert.ReferenceIdeal.Gen.bcast_S1x32_S512x32_0_1, zero32_eq]

theorem klogits_eq (p : FVec Ideal S512x64 .f32) (W1 : FVec Ideal S64x32 .f32) (b1 : FVec Ideal S32 .f32) (W2 : FVec Ideal S32x5 .f32) (b2 : FVec Ideal S5 .f32) :
    klogits (F := Ideal) p W1 (broadcastInDim S1x32 ![1] Cert.ReferenceIdeal.Gen.bcast_S32_S1x32_1 b1) W2 (broadcastInDim S1x5 ![1] Cert.ReferenceIdeal.Gen.bcast_S5_S1x5_1 b2) = Cert.ReferenceIdeal.Spec.logits (F := Ideal) p W1 b1 W2 b2 := by
  unfold klogits Cert.ReferenceIdeal.Spec.logits
  rw [khidden_eq, mm2_eq, rowDown_eq _ shapeCasts_S1x5_S1x5 broadcasts_S1x5_S512x5 Cert.ReferenceIdeal.Gen.bcast_S1x5_S512x5_0_1]

theorem kcolmax_eq (z : FVec Ideal S512x5 .f32) : kcolmax (F := Ideal) z = Cert.ReferenceIdeal.Spec.colMax (F := Ideal) z := by
  funext i
  obtain ⟨r, j, rfl⟩ : ∃ (r : Fin 512) (j : Fin 5), i = ix2 r j := ⟨i 0, i 1, eq_ix2 i⟩
  have hL : kcolmax (F := Ideal) z (ix2 r j)
      = (Finset.univ : Finset (Fin 512)).fold max (Ideal.ofBits .f32 0xFF800000#32) (fun k => z (ix2 k j)) :=
    (broadcastTo_1b_ab_apply _ broadcasts_S1x5_S512x5 r j).trans
      ((shapeCast_a_1a_apply _ shapeCasts_S5_S1x5 (0 : Fin 1) j).trans
        (maxAxis0_apply z 0xFF800000#32 reduces_S512x5_S5 _ _ j))
  have hR : Cert.ReferenceIdeal.Spec.colMax (F := Ideal) z (ix2 r j)
      = max (Ideal.ofBits .f32 0xFF800000#32) ((Finset.univ : Finset (Fin 512)).fold max (Ideal.ofBits .f32 0xFF800000#32) (fun k => z (ix2 k j))) :=
    (Cert.LibColumn.bid_1b_ab_apply _ Cert.ReferenceIdeal.Gen.bcast_S1x5_S512x5_0_1 r j).trans
      ((Cert.LibColumn.bid_b_1b_apply _ Cert.ReferenceIdeal.Gen.bcast_S5_S1x5_1 (0 : Fin 1) j).trans
        (congrArg₂ max (Cert.LibColumn.bid_scalar_apply (constant (F := Ideal) S_ .f32 0xFF800000#32) Cert.ReferenceIdeal.Gen.bcast_S_S5 (ix1 j))
          (hostMaxAxis0_apply z (constant S_ .f32 0xFF800000#32) Cert.ReferenceIdeal.Gen.reducesTo_S512x5_S5_d0 reduces_S512x5_S5 Cert.ReferenceIdeal.Gen.h_S_ j)))
  exact hL.trans ((max_eq_right ((Finset.le_fold_max _).mpr (Or.inl le_rfl))).symm.trans hR.symm)

theorem exp_eq (y : FVec Ideal S512x5 .f32) : exp y = Host.exp y := rfl

theorem klse_eq (e : FVec Ideal S512x5 .f32) :
    broadcastTo S512x5 (log (shapeCast S1x5 (multiReduction .add [0] S5 e 0x00000000#32 reduces_S512x5_S5 (.inl rfl) rfl) shapeCasts_S5_S1x5)) broadcasts_S1x5_S512x5
      = broadcastInDim S512x5 ![0, 1] Cert.ReferenceIdeal.Gen.bcast_S1x5_S512x5_0_1 (Host.log (broadcastInDim S1x5 ![1] Cert.ReferenceIdeal.Gen.bcast_S5_S1x5_1 (Host.reduceAdd e (constant S_ .f32 0x00000000#32) Cert.ReferenceIdeal.Gen.reducesTo_S512x5_S5_d0 Cert.ReferenceIdeal.Gen.h_S_))) := by
  funext i
  obtain ⟨r, j, rfl⟩ : ∃ (r : Fin 512) (j : Fin 5), i = ix2 r j := ⟨i 0, i 1, eq_ix2 i⟩
  rw [broadcastTo_1b_ab_apply, Cert.LibColumn.bid_1b_ab_apply, vlog_apply, hlog_apply, shapeCast_a_1a_apply, Cert.LibColumn.bid_b_1b_apply]
  refine congrArg Ideal.log ?_
  refine (Cert.LibColumn.sumAxis0_apply e 0x00000000#32 reduces_S512x5_S5 _ _ j).trans ?_
  refine Eq.trans ?_ (hostSumAxis0_apply e (constant S_ .f32 0x00000000#32) Cert.ReferenceIdeal.Gen.reducesTo_S512x5_S5_d0 reduces_S512x5_S5 Cert.ReferenceIdeal.Gen.h_S_ j).symm
  show _ = Ideal.ofBits .f32 0x00000000#32 + _
  rw [Ideal.ofBits_zero_f32, zero_add]

theorem ktail_eq (z : FVec Ideal S512x5 .f32) : ktail (F := Ideal) z = Cert.ReferenceIdeal.Spec.logSoftmax0 (F := Ideal) z := by
  unfold ktail Cert.ReferenceIdeal.Spec.logSoftmax0
  rw [kcolmax_eq, exp_eq, klse_eq]

-- two small matrix products, then log-softmax down each column, read entry by entry
theorem mlp_val (p : (⟨S512x64, .f32⟩ : BufTy).Contents (Elt Ideal)) (W1 : (⟨S64x32, .f32⟩ : BufTy).Contents (Elt Ideal))
    (b1 : (⟨S32, .f32⟩ : BufTy).Contents (Elt Ideal)) (W2 : (⟨S32x5, .f32⟩ : BufTy).Contents (Elt Ideal))
    (b2 : (⟨S5, .f32⟩ : BufTy).Contents (Elt Ideal)) :
    k7_pay1 (F := Ideal) p W1 (broadcastInDim S1x32 ![1] Cert.ReferenceIdeal.Gen.bcast_S32_S1x32_1 b1) W2 (broadcastInDim S1x5 ![1] Cert.ReferenceIdeal.Gen.bcast_S5_S1x5_1 b2)
      = Cert.ReferenceIdeal.Spec.logSoftmax0 (F := Ideal) (Cert.ReferenceIdeal.Spec.logits (F := Ideal) p W1 b1 W2 b2) :=
  (k7_pay1_eq (F := Ideal) _ _ _ _ _).trans ((congrArg (ktail (F := Ideal)) (klogits_eq p W1 b1 W2 b2)).trans (ktail_eq _))

end Value

end Cert.KernelIdeal.Hand

end
-- ==== Proof.Bridge.lean ====
import proofs.«410316_j20426864460069_3_alg».proof.Proof.Glue
import proofs.«410316_j20426864460069_3_alg».proof.Proof.ValLin
import proofs.«410316_j20426864460069_3_alg».proof.Proof.ValLin2
import proofs.«410316_j20426864460069_3_alg».proof.Proof.ValLin4
import proofs.«410316_j20426864460069_3_alg».proof.Proof.ValBias
import proofs.«410316_j20426864460069_3_alg».proof.Proof.ValPool
import proofs.«410316_j20426864460069_3_alg».proof.Proof.ValMlp

set_option maxRecDepth 16384

noncomputable section

namespace Cert.KernelIdeal.Hand

open Idealize.ShloMosaic Idealize.ShloMosaic.TcCoe
open Idealize.SL.Sem
open Cert.KernelIdeal Cert.KernelIdeal.Gen
open Cert.ReferenceIdeal (Spec.lin1 Spec.lin2 Spec.lin3 Spec.agg32 Spec.agg64 Spec.biasRelu32 Spec.biasRelu64 Spec.bias64 Spec.pool Spec.logits Spec.logSoftmax0 Spec.refTerm)

variable (m : (ℓ : Loc nD τ sig) → Buf (Elt Ideal) ℓ)

theorem v30 (c : Dev nD) : U4 m c main_v30 = Spec.lin1 (F := Ideal) (m ((c.tc : Thread nD τ).loc main_arg0)) (m ((c.tc : Thread nD τ).loc main_arg3)) := by
  unfold U4; rw [Function.update_self, lin0_val]
  show Spec.lin1 (F := Ideal) (U3 m c main_arg0) (U3 m c main_arg3) = _
  rw [U_arg3_0, U_arg3_3]

theorem v45 (c : Dev nD) : U6 m c main_v45 = Spec.biasRelu32 (F := Ideal) (Spec.agg32 (Spec.lin1 (m ((c.tc : Thread nD τ).loc main_arg0)) (m ((c.tc : Thread nD τ).loc main_arg3))) (m ((c.tc : Thread nD τ).loc main_arg1))) (m ((c.tc : Thread nD τ).loc main_arg4)) := by
  unfold U6; rw [Function.update_self]
  rw [bias1_val (rd (U5 m)) c (m ((c.tc : Thread nD τ).loc main_arg4)) ((U5_v44 m c).trans (row32_eq _))]
  show Spec.biasRelu32 (F := Ideal) (U5 m c main_v43) _ = _
  rw [U5_v43, v30]

theorem v46 (c : Dev nD) : U7 m c main_v46 = Spec.lin2 (F := Ideal) (Spec.biasRelu32 (Spec.agg32 (Spec.lin1 (m ((c.tc : Thread nD τ).loc main_arg0)) (m ((c.tc : Thread nD τ).loc main_arg3))) (m ((c.tc : Thread nD τ).loc main_arg1))) (m ((c.tc : Thread nD τ).loc main_arg4))) (m ((c.tc : Thread nD τ).loc main_arg5)) := by
  unfold U7; rw [Function.update_self, lin2_val]
  show Spec.lin2 (F := Ideal) (U6 m c main_v45) (U6 m c main_arg5) = _
  rw [v45, U_arg6_5]

theorem v61 (c : Dev nD) : U9 m c main_v61 = Spec.biasRelu64 (F := Ideal) (Spec.agg64 (Spec.lin2 (Spec.biasRelu32 (Spec.agg32 (Spec.lin1 (m ((c.tc : Thread nD τ).loc main_arg0)) (m ((c.tc : Thread nD τ).loc main_arg3))) (m ((c.tc : Thread nD τ).loc main_arg1))) (m ((c.tc : Thread nD τ).loc main_arg4))) (m ((c.tc : Thread nD τ).loc main_arg5))) (m ((c.tc : Thread nD τ).loc main_arg1))) (m ((c.tc : Thread nD τ).loc main_arg6)) := by
  unfold U9; rw [Function.update_self]
  rw [bias3_val (rd (U8 m)) c (m ((c.tc : Thread nD τ).loc main_arg6)) ((U8_v60 m c).trans (row64_eq _))]
  show Spec.biasRelu64 (F := Ideal) (U8 m c main_v59) _ = _
  rw [U8_v59, v46]

theorem v62 (c : Dev nD) : U10 m c main_v62 = Spec.lin3 (F := Ideal) (Spec.biasRelu64 (Spec.agg64 (Spec.lin2 (Spec.biasRelu32 (Spec.agg32 (Spec.lin1 (m ((c.tc : Thread nD τ).loc main_arg0)) (m ((c.tc : Thread nD τ).loc main_arg3))) (m ((c.tc : Thread nD τ).loc main_arg1))) (m ((c.tc : Thread nD τ).loc main_arg4))) (m ((c.tc : Thread nD τ).loc main_arg5))) (m ((c.tc : Thread nD τ).loc main_arg1))) (m ((c.tc : Thread nD τ).loc main_arg6))) (m ((c.tc : Thread nD τ).loc main_arg7)) := by
  unfold U10; rw [Function.update_self, lin4_val]
  show Spec.lin3 (F := Ideal) (U9 m c main_v61) (U9 m c main_arg7) = _
  rw [v61, U_arg9_7]

theorem v77 (c : Dev nD) : U12 m c main_v77 = Spec.bias64 (F := Ideal) (Spec.agg64 (Spec.lin3 (Spec.biasRelu64 (Spec.agg64 (Spec.lin2 (Spec.biasRelu32 (Spec.agg32 (Spec.lin1 (m ((c.tc : Thread nD τ).loc main_arg0)) (m ((c.tc : Thread nD τ).loc main_arg3))) (m ((c.tc : Thread nD τ).loc main_arg1))) (m ((c.tc : Thread nD τ).loc main_arg4))) (m ((c.tc : Thread nD τ).loc main_arg5))) (m ((c.tc : Thread nD τ).loc main_arg1))) (m ((c.tc : Thread nD τ).loc main_arg6))) (m ((c.tc : Thread nD τ).loc main_arg7))) (m ((c.tc : Thread nD τ).loc main_arg1))) (m ((c.tc : Thread nD τ).loc main_arg8)) := by
  unfold U12; rw [Function.update_self]
  rw [bias5_val (rd (U11 m)) c (m ((c.tc : Thread nD τ).loc main_arg8)) ((U11_v76 m c).trans (row64_eq _))]
  show Spec.bias64 (F := Ideal) (U11 m c main_v75) _ = _
  rw [U11_v75, v62]

theorem v79 (c : Dev nD) : U14 m c main_v79 = Spec.pool (F := Ideal) (m ((c.tc : Thread nD τ).loc main_arg2)) (Spec.bias64 (Spec.agg64 (Spec.lin3 (Spec.biasRelu64 (Spec.agg64 (Spec.lin2 (Spec.biasRelu32 (Spec.agg32 (Spec.lin1 (m ((c.tc : Thread nD τ).loc main_arg0)) (m ((c.tc : Thread nD τ).loc main_arg3))) (m ((c.tc : Thread nD τ).loc main_arg1))) (m ((c.tc : Thread nD τ).loc main_arg4))) (m ((c.tc : Thread nD τ).loc main_arg5))) (m ((c.tc : Thread nD τ).loc main_arg1))) (m ((c.tc : Thread nD τ).loc main_arg6))) (m ((c.tc : Thread nD τ).loc main_arg7))) (m ((c.tc : Thread nD τ).loc main_arg1))) (m ((c.tc : Thread nD τ).loc main_arg8))) := by
  unfold U14; rw [Function.update_self]
  rw [pool_val (rd (U13 m)) c (m ((c.tc : Thread nD τ).loc main_arg2)) ((U13_v78 m c).trans (col_eq _))]
  show Spec.pool (F := Ideal) _ (U13 m c main_v77) = _
  rw [U13_v77, v77]

-- item by item the program's arrays are the reference's layers of the same arguments
theorem bridge (c : Dev nD) : (dat7 (F := Ideal) (rd (U15 m)) c).arrAt 5 cfg7.N = Spec.refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [mlp_arr]
  show k7_pay1 (F := Ideal) (U15 m c main_v79) (U15 m c main_arg9) (U15 m c main_v80) (U15 m c main_arg11) (U15 m c main_v81) = _
  rw [U15_v79, v79, U_arg15_9, U_arg15_11, (U15_v80 m c).trans (row32'_eq _), (U15_v81 m c).trans (row5_eq _)]
  exact mlp_val _ _ _ _ _

end Cert.KernelIdeal.Hand

end
-- ==== Proof.RefRun0.lean ====
import proofs.«410316_j20426864460069_3_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x3200000 ![0, 0] · slices_S2x3200000_S1x3200000_0_0)),
    reshape main_v0 main_v1 rfl shapeCasts_S1x3200000_S3200000,
    unary main_arg1 main_v2 ((extractStridedSlice S1x3200000 ![1, 0] · slices_S2x3200000_S1x3200000_1_0)),
    reshape main_v2 main_v3 rfl shapeCasts_S1x3200000_S3200000,
    nullary main_v4 (iotaInDim S100000 32 0) ]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub ..⟩

set_option maxRecDepth 8192 in

theorem ops0_fresh : (ops0 : List (HloOp τ sig (Elt F))).Forall fun op => op.fresh = ∅ :=
  ⟨rfl, rfl, rfl, rfl, rfl⟩

abbrev ops0_W : List (Ref sig .tc) := [main_v0, main_v1, main_v2, main_v3, main_v4]
set_option maxRecDepth 8192 in
theorem ops0_writes : (ops0 : List (HloOp τ sig (Elt F))).Forall fun op => op.writes ⊆ (ops0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep0 (V : Valuation τ sig (Elt F)) (r : Ref sig .tc) (h : r ∉ ops0_W) :
    after ops0 V (Proc.devRef .tc r) = V (Proc.devRef .tc r) :=
  after_of_writes_sub ops0 _ ops0_writes h

theorem val0_main_v1 (V : Valuation τ sig (Elt F)) (ei : (⟨S2x3200000, .i32⟩ : BufTy).Contents (Elt F)) (ha1 : V (no_index (Proc.devRef .tc main_arg1)) = ei) :
    after ops0 V (no_index (Proc.devRef .tc main_v1)) = (shapeCast _ (extractStridedSlice S1x3200000 ![0, 0] ei slices_S2x3200000_S1x3200000_0_0) shapeCasts_S1x3200000_S3200000) := by
  simp only [ops0]
  after_results_simp
  simp only [ha1] <;> rfl
theorem val0_main_v3 (V : Valuation τ sig (Elt F)) (ei : (⟨S2x3200000, .i32⟩ : BufTy).Contents (Elt F)) (ha1 : V (no_index (Proc.devRef .tc main_arg1)) = ei) :
    after ops0 V (no_index (Proc.devRef .tc main_v3)) = (shapeCast _ (extractStridedSlice S1x3200000 ![1, 0] ei slices_S2x3200000_S1x3200000_1_0) shapeCasts_S1x3200000_S3200000) := by
  simp only [ops0]
  after_results_simp
  simp only [ha1] <;> rfl
theorem val0_main_v4 (V : Valuation τ sig (Elt F)) :
    after ops0 V (no_index (Proc.devRef .tc main_v4)) = (iotaInDim S100000 32 0) := by
  simp only [ops0]
  after_results_simp
  try rfl

end Cert.ReferenceIdeal.HandRun

end
-- ==== Proof.RefRun1.lean ====
import proofs.«410316_j20426864460069_3_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ binary main_v1 main_v4 main_v5 ((fun a b => concatenate S3300000 0 [⟨S3200000, a⟩, ⟨S100000, b⟩] concatenates_S3200000_S100000_S3300000_d0)),
    binary main_v3 main_v4 main_v6 ((fun a b => concatenate S3300000 0 [⟨S3200000, a⟩, ⟨S100000, b⟩] concatenates_S3200000_S100000_S3300000_d0)),
    nullary main_cst (constant S_ .f32 0x3F800000#32),
    unary main_cst main_v7 (broadcastInDim S3300000 ![] bcast_S_S3300000),
    nullary main_cst_0 (constant S_ .f32 0x00000000#32),
    unary main_cst_0 main_v8 (broadcastInDim S100000 ![] bcast_S_S100000),
    unary main_v6 main_v9 (broadcastInDim S3300000x1 ![0] bcast_S3300000_S3300000x1_0),
    ternary main_v8 main_v9 main_v7 main_v10 ((fun x i u => Host.scatterAdd scatter_S100000_S3300000x1_S3300000_n_0_0_1 x i u)),
    nullary main_cst_1 (constant S_ .f32 0x00000000#32),
    unary main_cst_1 main_v11 (broadcastInDim S100000 ![] bcast_S_S100000),
    binary main_v10 main_v11 main_v12 (cmpf .ogt),
    unary main_v10 main_v13 (Host.rsqrt),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000),
    binary main_v5 main_v15 main_v16 (cmpi .slt),
    nullary main_c_3 (constantI S_ 32 100000#32),
    unary main_c_3 main_v17 (broadcastInDim S3300000 ![] bcast_S_S3300000),
    binary main_v5 main_v17 main_v18 (addi),
    ternary main_v16 main_v18 main_v5 main_v19 (select),
    unary main_v19 main_v20 (broadcastInDim S3300000x1 ![0] bcast_S3300000_S3300000x1_0),
    binary main_v14 main_v20 main_v21 ((fun x i => Host.gather gather_S100000_S3300000x1_S3300000_n_0_n_n_0_1_1 x i)),
    nullary main_c_4 (constantI S_ 32 0#32),
    unary main_c_4 main_v22 (broadcastInDim S3300000 ![] bcast_S_S3300000),
    binary main_v6 main_v22 main_v23 (cmpi .slt),
    nullary main_c_5 (constantI S_ 32 100000#32),
    unary main_c_5 main_v24 (broadcastInDim S3300000 ![] bcast_S_S3300000),
    binary main_v6 main_v24 main_v25 (addi),
    ternary main_v23 main_v25 main_v6 main_v26 (select),
    unary main_v26 main_v27 (broadcastInDim S3300000x1 ![0] bcast_S3300000_S3300000x1_0),
    binary main_v14 main_v27 main_v28 ((fun x i => Host.gather gather_S100000_S3300000x1_S3300000_n_0_n_n_0_1_1 x i)),
    binary main_v21 main_v28 main_v29 (mulf),
    binary main_arg0 main_arg3 main_v30 ((fun l r => Host.dotGeneral dot_S100000x3_S3x32_S100000x32_1_0_0_1_n_n none l r)),
    nullary main_c_6 (constantI S_ 32 0#32),
    unary main_c_6 main_v31 (broadcastInDim S3300000 ![] bcast_S_S3300000),
    binary main_v5 main_v31 main_v32 (cmpi .slt),
    nullary main_c_7 (constantI S_ 32 100000#32),
    unary main_c_7 main_v33 (broadcastInDim S3300000 ![] bcast_S_S3300000),
    binary main_v5 main_v33 main_v34 (addi),
    ternary main_v32 main_v34 main_v5 main_v35 (select),
    unary main_v35 main_v36 (broadcastInDim S3300000x1 ![0] bcast_S3300000_S3300000x1_0),
    binary main_v30 main_v36 main_v37 ((fun x i => Host.gather gather_S100000x32_S3300000x1_S3300000x32_1_0_n_n_0_1_132 x i)),
    unary main_v29 main_v38 (broadcastInDim S3300000x1 ![0] bcast_S3300000_S3300000x1_0),
    unary main_v38 main_v39 (broadcastInDim S3300000x32 ![0, 1] bcast_S3300000x1_S3300000x32_0_1),
    binary main_v37 main_v39 main_v40 (mulf),
    nullary main_cst_8 (constant S_ .f32 0x00000000#32),
    unary main_cst_8 main_v41 (broadcastInDim S100000x32 ![] bcast_S_S100000x32),
    unary main_v6 main_v42 (broadcastInDim S3300000x1 ![0] bcast_S3300000_S3300000x1_0),
    ternary main_v41 main_v42 main_v40 main_v43 ((fun x i u => Host.scatterAdd scatter_S100000x32_S3300000x1_S3300000x32_1_0_0_1 x i u)),
    unary main_arg4 main_v44 (broadcastInDim S1x32 ![1] bcast_S32_S1x32_1),
    unary main_v44 main_v45 (broadcastInDim S100000x32 ![0, 1] bcast_S1x32_S100000x32_0_1),
    binary main_v43 main_v45 main_v46 (addf),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf,
    nullary main_v48 (iotaInDim S100000 32 0) ]

set_option maxRecDepth 8192 in
theorem ops1_sub : (ops1 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩

set_option maxRecDepth 8192 in

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops1_W : List (Ref sig .tc) := [main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48]
set_option maxRecDepth 8192 in
theorem ops1_writes : (ops1 : List (HloOp τ sig (Elt F))).Forall fun op => op.writes ⊆ (ops1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep1 (V : Valuation τ sig (Elt F)) (r : Ref sig .tc) (h : r ∉ ops1_W) :
    after ops1 V (Proc.devRef .tc r) = V (Proc.devRef .tc r) :=
  after_of_writes_sub ops1 _ ops1_writes h

set_option maxRecDepth 8192 in
set_option maxHeartbeats 4000000 in

theorem val1_main_v47 (V : Valuation τ sig (Elt F)) (ei : (⟨S2x3200000, .i32⟩ : BufTy).Contents (Elt F)) (a0 : (⟨S100000x3, .f32⟩ : BufTy).Contents (Elt F)) (a3 : (⟨S3x32, .f32⟩ : BufTy).Contents (Elt F)) (a4 : (⟨S32, .f32⟩ : BufTy).Contents (Elt F))
    (hv1 : V (no_index (Proc.devRef .tc main_v1)) = (shapeCast _ (extractStridedSlice S1x3200000 ![0, 0] ei slices_S2x3200000_S1x3200000_0_0) shapeCasts_S1x3200000_S3200000)) (hv3 : V (no_index (Proc.devRef .tc main_v3)) = (shapeCast _ (extractStridedSlice S1x3200000 ![1, 0] ei slices_S2x3200000_S1x3200000_1_0) shapeCasts_S1x3200000_S3200000)) (hv4 : V (no_index (Proc.devRef .tc main_v4)) = (iotaInDim S100000 32 0))
    (ha0 : V (no_index (Proc.devRef .tc main_arg0)) = a0) (ha3 : V (no_index (Proc.devRef .tc main_arg3)) = a3) (ha4 : V (no_index (Proc.devRef .tc main_arg4)) = a4) :
    after ops1 V (no_index (Proc.devRef .tc main_v47)) = Spec.biasRelu32 (Spec.agg32 (Spec.lin1 a0 a3) ei) a4 := by
  simp only [ops1]
  after_results_simp
  repeat (rw [binary_result_ne]; rotate_left; decide)
  rw [hv1, hv3, hv4]
  simp only [ha0, ha3, ha4] <;> rfl
theorem val1_main_v48 (V : Valuation τ sig (Elt F)) :
    after ops1 V (no_index (Proc.devRef .tc main_v48)) = (iotaInDim S100000 32 0) := by
  simp only [ops1]
  after_results_simp
  try rfl

end Cert.ReferenceIdeal.HandRun

end
-- ==== Proof.RefRun2.lean ====
import proofs.«410316_j20426864460069_3_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ binary main_v1 main_v48 main_v49 ((fun a b => concatenate S3300000 0 [⟨S3200000, a⟩, ⟨S100000, b⟩] concatenates_S3200000_S100000_S3300000_d0)),
    binary main_v3 main_v48 main_v50 ((fun a b => concatenate S3300000 0 [⟨S3200000, a⟩, ⟨S100000, b⟩] concatenates_S3200000_S100000_S3300000_d0)),
    nullary main_cst_9 (constant S_ .f32 0x3F800000#32),
    unary main_cst_9 main_v51 (broadcastInDim S3300000 ![] bcast_S_S3300000),
    nullary main_cst_10 (constant S_ .f32 0x00000000#32),
    unary main_cst_10 main_v52 (broadcastInDim S100000 ![] bcast_S_S100000),
    unary main_v50 main_v53 (broadcastInDim S3300000x1 ![0] bcast_S3300000_S3300000x1_0),
    ternary main_v52 main_v53 main_v51 main_v54 ((fun x i u => Host.scatterAdd scatter_S100000_S3300000x1_S3300000_n_0_0_1 x i u)),
    nullary main_cst_11 (constant S_ .f32 0x00000000#32),
    unary main_cst_11 main_v55 (broadcastInDim S100000 ![] bcast_S_S100000),
    binary main_v54 main_v55 main_v56 (cmpf .ogt),
    unary main_v54 main_v57 (Host.rsqrt),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v56) (TRef.of (T := ⟨S100000, .f32⟩) main_v57) (TRef.of (T := ⟨S100000, .f32⟩) main_call2_v1) (TRef.of (T := ⟨S100000, .f32⟩) main_v58) select,
    nullary main_c_13 (constantI S_ 32 0#32),
    unary main_c_13 main_v59 (broadcastInDim S3300000 ![] bcast_S_S3300000),
    binary main_v49 main_v59 main_v60 (cmpi .slt),
    nullary main_c_14 (constantI S_ 32 100000#32),
    unary main_c_14 main_v61 (broadcastInDim S3300000 ![] bcast_S_S3300000),
    binary main_v49 main_v61 main_v62 (addi),
    ternary main_v60 main_v62 main_v49 main_v63 (select),
    unary main_v63 main_v64 (broadcastInDim S3300000x1 ![0] bcast_S3300000_S3300000x1_0),
    binary main_v58 main_v64 main_v65 ((fun x i => Host.gather gather_S100000_S3300000x1_S3300000_n_0_n_n_0_1_1 x i)),
    nullary main_c_15 (constantI S_ 32 0#32),
    unary main_c_15 main_v66 (broadcastInDim S3300000 ![] bcast_S_S3300000),
    binary main_v50 main_v66 main_v67 (cmpi .slt),
    nullary main_c_16 (constantI S_ 32 100000#32),
    unary main_c_16 main_v68 (broadcastInDim S3300000 ![] bcast_S_S3300000),
    binary main_v50 main_v68 main_v69 (addi),
    ternary main_v67 main_v69 main_v50 main_v70 (select),
    unary main_v70 main_v71 (broadcastInDim S3300000x1 ![0] bcast_S3300000_S3300000x1_0),
    binary main_v58 main_v71 main_v72 ((fun x i => Host.gather gather_S100000_S3300000x1_S3300000_n_0_n_n_0_1_1 x i)),
    binary main_v65 main_v72 main_v73 (mulf),
    binary main_v47 main_arg5 main_v74 ((fun l r => Host.dotGeneral dot_S100000x32_S32x64_S100000x64_1_0_0_1_n_n none l r)),
    nullary main_c_17 (constantI S_ 32 0#32),
    unary main_c_17 main_v75 (broadcastInDim S3300000 ![] bcast_S_S3300000),
    binary main_v49 main_v75 main_v76 (cmpi .slt),
    nullary main_c_18 (constantI S_ 32 100000#32),
    unary main_c_18 main_v77 (broadcastInDim S3300000 ![] bcast_S_S3300000),
    binary main_v49 main_v77 main_v78 (addi),
    ternary main_v76 main_v78 main_v49 main_v79 (select),
    unary main_v79 main_v80 (broadcastInDim S3300000x1 ![0] bcast_S3300000_S3300000x1_0),
    binary main_v74 main_v80 main_v81 ((fun x i => Host.gather gather_S100000x64_S3300000x1_S3300000x64_1_0_n_n_0_1_164 x i)),
    unary main_v73 main_v82 (broadcastInDim S3300000x1 ![0] bcast_S3300000_S3300000x1_0),
    unary main_v82 main_v83 (broadcastInDim S3300000x64 ![0, 1] bcast_S3300000x1_S3300000x64_0_1),
    binary main_v81 main_v83 main_v84 (mulf),
    nullary main_cst_19 (constant S_ .f32 0x00000000#32),
    unary main_cst_19 main_v85 (broadcastInDim S100000x64 ![] bcast_S_S100000x64),
    unary main_v50 main_v86 (broadcastInDim S3300000x1 ![0] bcast_S3300000_S3300000x1_0),
    ternary main_v85 main_v86 main_v84 main_v87 ((fun x i u => Host.scatterAdd scatter_S100000x64_S3300000x1_S3300000x64_1_0_0_1 x i u)),
    unary main_arg6 main_v88 (broadcastInDim S1x64 ![1] bcast_S64_S1x64_1),
    unary main_v88 main_v89 (broadcastInDim S100000x64 ![0, 1] bcast_S1x64_S100000x64_0_1),
    binary main_v87 main_v89 main_v90 (addf),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v90) (TRef.of (T := ⟨S100000x64, .f32⟩) main_call3_v0) (TRef.of (T := ⟨S100000x64, .f32⟩) main_v91) maximumf,
    nullary main_v92 (iotaInDim S100000 32 0) ]

set_option maxRecDepth 8192 in
theorem ops2_sub : (ops2 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩

set_option maxRecDepth 8192 in

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops2_W : List (Ref sig .tc) := [main_v49, main_v50, main_cst_9, main_v51, main_cst_10, main_v52, main_v53, main_v54, main_cst_11, main_v55, main_v56, main_v57, main_cst_12, main_call2_v0, main_call2_v1, main_v58, main_c_13, main_v59, main_v60, main_c_14, main_v61, main_v62, main_v63, main_v64, main_v65, main_c_15, main_v66, main_v67, main_c_16, main_v68, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90, main_call3_cst, main_call3_v0, main_v91, main_v92]
set_option maxRecDepth 8192 in
theorem ops2_writes : (ops2 : List (HloOp τ sig (Elt F))).Forall fun op => op.writes ⊆ (ops2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep2 (V : Valuation τ sig (Elt F)) (r : Ref sig .tc) (h : r ∉ ops2_W) :
    after ops2 V (Proc.devRef .tc r) = V (Proc.devRef .tc r) :=
  after_of_writes_sub ops2 _ ops2_writes h

set_option maxRecDepth 8192 in
set_option maxHeartbeats 4000000 in

theorem val2_main_v91 (V : Valuation τ sig (Elt F)) (ei : (⟨S2x3200000, .i32⟩ : BufTy).Contents (Elt F)) (h1 : (⟨S100000x32, .f32⟩ : BufTy).Contents (Elt F)) (a5 : (⟨S32x64, .f32⟩ : BufTy).Contents (Elt F)) (a6 : (⟨S64, .f32⟩ : BufTy).Contents (Elt F))
    (hv1 : V (no_index (Proc.devRef .tc main_v1)) = (shapeCast _ (extractStridedSlice S1x3200000 ![0, 0] ei slices_S2x3200000_S1x3200000_0_0) shapeCasts_S1x3200000_S3200000)) (hv3 : V (no_index (Proc.devRef .tc main_v3)) = (shapeCast _ (extractStridedSlice S1x3200000 ![1, 0] ei slices_S2x3200000_S1x3200000_1_0) shapeCasts_S1x3200000_S3200000)) (hv48 : V (no_index (Proc.devRef .tc main_v48)) = (iotaInDim S100000 32 0))
    (hv47 : V (no_index (Proc.devRef .tc main_v47)) = h1) (ha5 : V (no_index (Proc.devRef .tc main_arg5)) = a5) (ha6 : V (no_index (Proc.devRef .tc main_arg6)) = a6) :
    after ops2 V (no_index (Proc.devRef .tc main_v91)) = Spec.biasRelu64 (Spec.agg64 (Spec.lin2 h1 a5) ei) a6 := by
  simp only [ops2]
  after_results_simp
  repeat (rw [binary_result_ne]; rotate_left; decide)
  rw [hv1, hv3, hv48]
  simp only [hv47, ha5, ha6] <;> rfl
theorem val2_main_v92 (V : Valuation τ sig (Elt F)) :
    after ops2 V (no_index (Proc.devRef .tc main_v92)) = (iotaInDim S100000 32 0) := by
  simp only [ops2]
  after_results_simp
  try rfl

end Cert.ReferenceIdeal.HandRun

end
-- ==== Proof.RefRun3.lean ====
import proofs.«410316_j20426864460069_3_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ binary main_v1 main_v92 main_v93 ((fun a b => concatenate S3300000 0 [⟨S3200000, a⟩, ⟨S100000, b⟩] concatenates_S3200000_S100000_S3300000_d0)),
    binary main_v3 main_v92 main_v94 ((fun a b => concatenate S3300000 0 [⟨S3200000, a⟩, ⟨S100000, b⟩] concatenates_S3200000_S100000_S3300000_d0)),
    nullary main_cst_20 (constant S_ .f32 0x3F800000#32),
    unary main_cst_20 main_v95 (broadcastInDim S3300000 ![] bcast_S_S3300000),
    nullary main_cst_21 (constant S_ .f32 0x00000000#32),
    unary main_cst_21 main_v96 (broadcastInDim S100000 ![] bcast_S_S100000),
    unary main_v94 main_v97 (broadcastInDim S3300000x1 ![0] bcast_S3300000_S3300000x1_0),
    ternary main_v96 main_v97 main_v95 main_v98 ((fun x i u => Host.scatterAdd scatter_S100000_S3300000x1_S3300000_n_0_0_1 x i u)),
    nullary main_cst_22 (constant S_ .f32 0x00000000#32),
    unary main_cst_22 main_v99 (broadcastInDim S100000 ![] bcast_S_S100000),
    binary main_v98 main_v99 main_v100 (cmpf .ogt),
    unary main_v98 main_v101 (Host.rsqrt),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v100) (TRef.of (T := ⟨S100000, .f32⟩) main_v101) (TRef.of (T := ⟨S100000, .f32⟩) main_call4_v1) (TRef.of (T := ⟨S100000, .f32⟩) main_v102) select,
    nullary main_c_24 (constantI S_ 32 0#32),
    unary main_c_24 main_v103 (broadcastInDim S3300000 ![] bcast_S_S3300000),
    binary main_v93 main_v103 main_v104 (cmpi .slt),
    nullary main_c_25 (constantI S_ 32 100000#32),
    unary main_c_25 main_v105 (broadcastInDim S3300000 ![] bcast_S_S3300000),
    binary main_v93 main_v105 main_v106 (addi),
    ternary main_v104 main_v106 main_v93 main_v107 (select),
    unary main_v107 main_v108 (broadcastInDim S3300000x1 ![0] bcast_S3300000_S3300000x1_0),
    binary main_v102 main_v108 main_v109 ((fun x i => Host.gather gather_S100000_S3300000x1_S3300000_n_0_n_n_0_1_1 x i)),
    nullary main_c_26 (constantI S_ 32 0#32),
    unary main_c_26 main_v110 (broadcastInDim S3300000 ![] bcast_S_S3300000),
    binary main_v94 main_v110 main_v111 (cmpi .slt),
    nullary main_c_27 (constantI S_ 32 100000#32),
    unary main_c_27 main_v112 (broadcastInDim S3300000 ![] bcast_S_S3300000),
    binary main_v94 main_v112 main_v113 (addi),
    ternary main_v111 main_v113 main_v94 main_v114 (select),
    unary main_v114 main_v115 (broadcastInDim S3300000x1 ![0] bcast_S3300000_S3300000x1_0),
    binary main_v102 main_v115 main_v116 ((fun x i => Host.gather gather_S100000_S3300000x1_S3300000_n_0_n_n_0_1_1 x i)),
    binary main_v109 main_v116 main_v117 (mulf),
    binary main_v91 main_arg7 main_v118 ((fun l r => Host.dotGeneral dot_S100000x64_S64x64_S100000x64_1_0_0_1_n_n none l r)),
    nullary main_c_28 (constantI S_ 32 0#32),
    unary main_c_28 main_v119 (broadcastInDim S3300000 ![] bcast_S_S3300000),
    binary main_v93 main_v119 main_v120 (cmpi .slt),
    nullary main_c_29 (constantI S_ 32 100000#32),
    unary main_c_29 main_v121 (broadcastInDim S3300000 ![] bcast_S_S3300000),
    binary main_v93 main_v121 main_v122 (addi),
    ternary main_v120 main_v122 main_v93 main_v123 (select),
    unary main_v123 main_v124 (broadcastInDim S3300000x1 ![0] bcast_S3300000_S3300000x1_0),
    binary main_v118 main_v124 main_v125 ((fun x i => Host.gather gather_S100000x64_S3300000x1_S3300000x64_1_0_n_n_0_1_164 x i)),
    unary main_v117 main_v126 (broadcastInDim S3300000x1 ![0] bcast_S3300000_S3300000x1_0),
    unary main_v126 main_v127 (broadcastInDim S3300000x64 ![0, 1] bcast_S3300000x1_S3300000x64_0_1),
    binary main_v125 main_v127 main_v128 (mulf),
    nullary main_cst_30 (constant S_ .f32 0x00000000#32),
    unary main_cst_30 main_v129 (broadcastInDim S100000x64 ![] bcast_S_S100000x64),
    unary main_v94 main_v130 (broadcastInDim S3300000x1 ![0] bcast_S3300000_S3300000x1_0),
    ternary main_v129 main_v130 main_v128 main_v131 ((fun x i u => Host.scatterAdd scatter_S100000x64_S3300000x1_S3300000x64_1_0_0_1 x i u)),
    unary main_arg8 main_v132 (broadcastInDim S1x64 ![1] bcast_S64_S1x64_1),
    unary main_v132 main_v133 (broadcastInDim S100000x64 ![0, 1] bcast_S1x64_S100000x64_0_1),
    binary main_v131 main_v133 main_v134 (addf),
    nullary main_cst_31 (constant S_ .f32 0x00000000#32),
    unary main_cst_31 main_v135 (broadcastInDim S512x64 ![] bcast_S_S512x64),
    unary main_arg2 main_v136 (broadcastInDim S100000x1 ![0] bcast_S100000_S100000x1_0),
    ternary main_v135 main_v136 main_v134 main_v137 ((fun x i u => Host.scatterAdd scatter_S512x64_S100000x1_S100000x64_1_0_0_1 x i u)) ]

set_option maxRecDepth 8192 in
theorem ops3_sub : (ops3 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub ..⟩

set_option maxRecDepth 8192 in

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops3_W : List (Ref sig .tc) := [main_v93, main_v94, main_cst_20, main_v95, main_cst_21, main_v96, main_v97, main_v98, main_cst_22, main_v99, main_v100, main_v101, main_cst_23, main_call4_v0, main_call4_v1, main_v102, main_c_24, main_v103, main_v104, main_c_25, main_v105, main_v106, main_v107, main_v108, main_v109, main_c_26, main_v110, main_v111, main_c_27, main_v112, main_v113, main_v114, main_v115, main_v116, main_v117, main_v118, main_c_28, main_v119, main_v120, main_c_29, main_v121, main_v122, main_v123, main_v124, main_v125, main_v126, main_v127, main_v128, main_cst_30, main_v129, main_v130, main_v131, main_v132, main_v133, main_v134, main_cst_31, main_v135, main_v136, main_v137]
set_option maxRecDepth 8192 in
theorem ops3_writes : (ops3 : List (HloOp τ sig (Elt F))).Forall fun op => op.writes ⊆ (ops3_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep3 (V : Valuation τ sig (Elt F)) (r : Ref sig .tc) (h : r ∉ ops3_W) :
    after ops3 V (Proc.devRef .tc r) = V (Proc.devRef .tc r) :=
  after_of_writes_sub ops3 _ ops3_writes h

set_option maxRecDepth 8192 in
set_option maxHeartbeats 4000000 in

theorem val3_main_v137 (V : Valuation τ sig (Elt F)) (ei : (⟨S2x3200000, .i32⟩ : BufTy).Contents (Elt F)) (h2 : (⟨S100000x64, .f32⟩ : BufTy).Contents (Elt F)) (a7 : (⟨S64x64, .f32⟩ : BufTy).Contents (Elt F)) (a8 : (⟨S64, .f32⟩ : BufTy).Contents (Elt F)) (a2 : (⟨S100000, .i32⟩ : BufTy).Contents (Elt F))
    (hv1 : V (no_index (Proc.devRef .tc main_v1)) = (shapeCast _ (extractStridedSlice S1x3200000 ![0, 0] ei slices_S2x3200000_S1x3200000_0_0) shapeCasts_S1x3200000_S3200000)) (hv3 : V (no_index (Proc.devRef .tc main_v3)) = (shapeCast _ (extractStridedSlice S1x3200000 ![1, 0] ei slices_S2x3200000_S1x3200000_1_0) shapeCasts_S1x3200000_S3200000)) (hv92 : V (no_index (Proc.devRef .tc main_v92)) = (iotaInDim S100000 32 0))
    (hv91 : V (no_index (Proc.devRef .tc main_v91)) = h2) (ha7 : V (no_index (Proc.devRef .tc main_arg7)) = a7) (ha8 : V (no_index (Proc.devRef .tc main_arg8)) = a8) (ha2 : V (no_index (Proc.devRef .tc main_arg2)) = a2) :
    after ops3 V (no_index (Proc.devRef .tc main_v137)) = Spec.pool a2 (Spec.bias64 (Spec.agg64 (Spec.lin3 h2 a7) ei) a8) := by
  simp only [ops3]
  after_results_simp
  repeat (rw [binary_result_ne]; rotate_left; decide)
  rw [hv1, hv3, hv92]
  simp only [hv91, ha7, ha8, ha2] <;> rfl

end Cert.ReferenceIdeal.HandRun

end
-- ==== Proof.RefRun4.lean ====
import proofs.«410316_j20426864460069_3_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ binary main_v137 main_arg9 main_v138 ((fun l r => Host.dotGeneral dot_S512x64_S64x32_S512x32_1_0_0_1_n_n none l r)),
    unary main_arg10 main_v139 (broadcastInDim S1x32 ![1] bcast_S32_S1x32_1),
    unary main_v139 main_v140 (broadcastInDim S512x32 ![0, 1] bcast_S1x32_S512x32_0_1),
    binary main_v138 main_v140 main_v141 (addf),
    TRef.nullary (TRef.of (T := ⟨S_, .f32⟩) main_call5_cst) (constant S_ .f32 0x00000000#32),
    TRef.unary (TRef.of (T := ⟨S_, .f32⟩) main_call5_cst) (TRef.of (T := ⟨S512x32, .f32⟩) main_call5_v0) (broadcastInDim S512x32 ![] bcast_S_S512x32),
    TRef.binary (TRef.of (T := ⟨S512x32, .f32⟩) main_v141) (TRef.of (T := ⟨S512x32, .f32⟩) main_call5_v0) (TRef.of (T := ⟨S512x32, .f32⟩) main_v142) maximumf,
    binary main_v142 main_arg11 main_v143 ((fun l r => Host.dotGeneral dot_S512x32_S32x5_S512x5_1_0_0_1_n_n none l r)),
    unary main_arg12 main_v144 (broadcastInDim S1x5 ![1] bcast_S5_S1x5_1),
    unary main_v144 main_v145 (broadcastInDim S512x5 ![0, 1] bcast_S1x5_S512x5_0_1),
    binary main_v143 main_v145 main_v146 (addf),
    TRef.nullary (TRef.of (T := ⟨S_, .f32⟩) main_call6_cst) (constant S_ .f32 0xFF800000#32),
    TRef.binary (TRef.of (T := ⟨S512x5, .f32⟩) main_v146) (TRef.of (T := ⟨S_, .f32⟩) main_call6_cst) (TRef.of (T := ⟨S5, .f32⟩) main_call6_v0) (fun x v => Host.reduce FloatOps.maximumf x v reducesTo_S512x5_S5_d0 h_S_),
    TRef.nullary (TRef.of (T := ⟨S_, .f32⟩) main_call6_cst_0) (constant S_ .f32 0xFF800000#32),
    TRef.unary (TRef.of (T := ⟨S_, .f32⟩) main_call6_cst_0) (TRef.of (T := ⟨S5, .f32⟩) main_call6_v1) (broadcastInDim S5 ![] bcast_S_S5),
    TRef.binary (TRef.of (T := ⟨S5, .f32⟩) main_call6_v1) (TRef.of (T := ⟨S5, .f32⟩) main_call6_v0) (TRef.of (T := ⟨S5, .f32⟩) main_call6_v2) maximumf,
    TRef.unary (TRef.of (T := ⟨S5, .f32⟩) main_call6_v2) (TRef.of (T := ⟨S1x5, .f32⟩) main_call6_v3) (broadcastInDim S1x5 ![1] bcast_S5_S1x5_1),
    TRef.unary (TRef.of (T := ⟨S1x5, .f32⟩) main_call6_v3) (TRef.of (T := ⟨S512x5, .f32⟩) main_call6_v4) (broadcastInDim S512x5 ![0, 1] bcast_S1x5_S512x5_0_1),
    TRef.binary (TRef.of (T := ⟨S512x5, .f32⟩) main_v146) (TRef.of (T := ⟨S512x5, .f32⟩) main_call6_v4) (TRef.of (T := ⟨S512x5, .f32⟩) main_call6_v5) subf,
    TRef.unary (TRef.of (T := ⟨S512x5, .f32⟩) main_call6_v5) (TRef.of (T := ⟨S512x5, .f32⟩) main_call6_v6) Host.exp,
    TRef.nullary (TRef.of (T := ⟨S_, .f32⟩) main_call6_cst_1) (constant S_ .f32 0x00000000#32),
    TRef.binary (TRef.of (T := ⟨S512x5, .f32⟩) main_call6_v6) (TRef.of (T := ⟨S_, .f32⟩) main_call6_cst_1) (TRef.of (T := ⟨S5, .f32⟩) main_call6_v7) (fun x v => Host.reduceAdd x v reducesTo_S512x5_S5_d0 h_S_),
    TRef.unary (TRef.of (T := ⟨S5, .f32⟩) main_call6_v7) (TRef.of (T := ⟨S1x5, .f32⟩) main_call6_v8) (broadcastInDim S1x5 ![1] bcast_S5_S1x5_1),
    TRef.unary (TRef.of (T := ⟨S1x5, .f32⟩) main_call6_v8) (TRef.of (T := ⟨S1x5, .f32⟩) main_call6_v9) Host.log,
    TRef.unary (TRef.of (T := ⟨S1x5, .f32⟩) main_call6_v9) (TRef.of (T := ⟨S512x5, .f32⟩) main_call6_v10) (broadcastInDim S512x5 ![0, 1] bcast_S1x5_S512x5_0_1),
    TRef.binary (TRef.of (T := ⟨S512x5, .f32⟩) main_call6_v5) (TRef.of (T := ⟨S512x5, .f32⟩) main_call6_v10) (TRef.of (T := ⟨S512x5, .f32⟩) main_v147) subf ]

set_option maxRecDepth 8192 in
theorem ops4_sub : (ops4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

abbrev ops4_W : List (Ref sig .tc) := [main_v138, main_v139, main_v140, main_v141, main_call5_cst, main_call5_v0, main_v142, main_v143, main_v144, main_v145, main_v146, main_call6_cst, main_call6_v0, main_call6_cst_0, main_call6_v1, main_call6_v2, main_call6_v3, main_call6_v4, main_call6_v5, main_call6_v6, main_call6_cst_1, main_call6_v7, main_call6_v8, main_call6_v9, main_call6_v10, main_v147]
set_option maxRecDepth 8192 in
theorem ops4_writes : (ops4 : List (HloOp τ sig (Elt F))).Forall fun op => op.writes ⊆ (ops4_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep4 (V : Valuation τ sig (Elt F)) (r : Ref sig .tc) (h : r ∉ ops4_W) :
    after ops4 V (Proc.devRef .tc r) = V (Proc.devRef .tc r) :=
  after_of_writes_sub ops4 _ ops4_writes h

set_option maxRecDepth 8192 in
set_option maxHeartbeats 4000000 in

theorem val4_main_v147 (V : Valuation τ sig (Elt F)) (p : (⟨S512x64, .f32⟩ : BufTy).Contents (Elt F)) (a9 : (⟨S64x32, .f32⟩ : BufTy).Contents (Elt F)) (a10 : (⟨S32, .f32⟩ : BufTy).Contents (Elt F)) (a11 : (⟨S32x5, .f32⟩ : BufTy).Contents (Elt F)) (a12 : (⟨S5, .f32⟩ : BufTy).Contents (Elt F))
    (hv137 : V (no_index (Proc.devRef .tc main_v137)) = p) (ha9 : V (no_index (Proc.devRef .tc main_arg9)) = a9) (ha10 : V (no_index (Proc.devRef .tc main_arg10)) = a10) (ha11 : V (no_index (Proc.devRef .tc main_arg11)) = a11) (ha12 : V (no_index (Proc.devRef .tc main_arg12)) = a12) :
    after ops4 V (no_index (Proc.devRef .tc main_v147)) = Spec.logSoftmax0 (Spec.logits p a9 a10 a11 a12) := by
  simp only [ops4]
  after_results_simp
  simp only [hv137, ha9, ha10, ha11, ha12] <;> rfl

end Cert.ReferenceIdeal.HandRun

end
-- ==== Proof.RefRun.lean ====
import proofs.«410316_j20426864460069_3_alg».proof.Proof.RefRun0
import proofs.«410316_j20426864460069_3_alg».proof.Proof.RefRun1
import proofs.«410316_j20426864460069_3_alg».proof.Proof.RefRun2
import proofs.«410316_j20426864460069_3_alg».proof.Proof.RefRun3
import proofs.«410316_j20426864460069_3_alg».proof.Proof.RefRun4

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ ops4)))

set_option maxRecDepth 16384 in
set_option maxHeartbeats 8000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h]

theorem after_app : ∀ (l₁ l₂ : List (HloOp τ sig (Elt F))) (V : Valuation τ sig (Elt F)), after (l₁ ++ l₂) V = after l₂ (after l₁ V)
  | [], _, _ => rfl
  | _ :: l, l₂, V => after_app l l₂ _

theorem after_ops (V : Valuation τ sig (Elt F)) : after ops V = (after ops4 (after ops3 (after ops2 (after ops1 (after ops0 V))))) := by
  simp only [ops, after_app]

theorem arg_keep (V : Valuation τ sig (Elt F)) (r : Ref sig .tc) (h : r ∉ ops0_W ∧ r ∉ ops1_W ∧ r ∉ ops2_W ∧ r ∉ ops3_W ∧ r ∉ ops4_W) :
    after ops V (Proc.devRef .tc r) = V (Proc.devRef .tc r) := by
  rw [after_ops]
  exact (keep4 _ r h.2.2.2.2).trans ((keep3 _ r h.2.2.2.1).trans ((keep2 _ r h.2.2.1).trans ((keep1 _ r h.2.1).trans (keep0 _ r h.1))))

set_option maxRecDepth 8192 in
theorem result_eq (V : Valuation τ sig (Elt F)) :
    (after ops4 (after ops3 (after ops2 (after ops1 (after ops0 V))))) (Proc.devRef .tc main_v147)
      = Spec.refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have e1 := val0_main_v1 V _ rfl
  have e3 := val0_main_v3 V _ rfl
  have e4 := val0_main_v4 V
  have h47 := val1_main_v47 (after ops0 V) (V (Proc.devRef .tc main_arg1)) (V (Proc.devRef .tc main_arg0)) (V (Proc.devRef .tc main_arg3)) (V (Proc.devRef .tc main_arg4)) e1 e3 e4 (keep0 V main_arg0 (by decide)) (keep0 V main_arg3 (by decide)) (keep0 V main_arg4 (by decide))
  have h48 := val1_main_v48 (after ops0 V)
  have e1_2 := (keep1 (after ops0 V) main_v1 (by decide)).trans e1
  have e3_2 := (keep1 (after ops0 V) main_v3 (by decide)).trans e3
  have h91 := val2_main_v91 (after ops1 (after ops0 V)) (V (Proc.devRef .tc main_arg1)) _ (V (Proc.devRef .tc main_arg5)) (V (Proc.devRef .tc main_arg6)) e1_2 e3_2 h48 h47 ((keep1 (after ops0 V) main_arg5 (by decide)).trans (keep0 V main_arg5 (by decide))) ((keep1 (after ops0 V) main_arg6 (by decide)).trans (keep0 V main_arg6 (by decide)))
  have h92 := val2_main_v92 (after ops1 (after ops0 V))
  have e1_3 := (keep2 (after ops1 (after ops0 V)) main_v1 (by decide)).trans e1_2
  have e3_3 := (keep2 (after ops1 (after ops0 V)) main_v3 (by decide)).trans e3_2
  have h137 := val3_main_v137 (after ops2 (after ops1 (after ops0 V))) (V (Proc.devRef .tc main_arg1)) _ (V (Proc.devRef .tc main_arg7)) (V (Proc.devRef .tc main_arg8)) (V (Proc.devRef .tc main_arg2)) e1_3 e3_3 h92 h91 (((keep2 (after ops1 (after ops0 V)) main_arg7 (by decide)).trans (keep1 (after ops0 V) main_arg7 (by decide))).trans (keep0 V main_arg7 (by decide))) (((keep2 (after ops1 (after ops0 V)) main_arg8 (by decide)).trans (keep1 (after ops0 V) main_arg8 (by decide))).trans (keep0 V main_arg8 (by decide))) (((keep2 (after ops1 (after ops0 V)) main_arg2 (by decide)).trans (keep1 (after ops0 V) main_arg2 (by decide))).trans (keep0 V main_arg2 (by decide)))
  have h147 := val4_main_v147 (after ops3 (after ops2 (after ops1 (after ops0 V)))) _ (V (Proc.devRef .tc main_arg9)) (V (Proc.devRef .tc main_arg10)) (V (Proc.devRef .tc main_arg11)) (V (Proc.devRef .tc main_arg12)) h137 ((((keep3 (after ops2 (after ops1 (after ops0 V))) main_arg9 (by decide)).trans (keep2 (after ops1 (after ops0 V)) main_arg9 (by decide))).trans (keep1 (after ops0 V) main_arg9 (by decide))).trans (keep0 V main_arg9 (by decide))) ((((keep3 (after ops2 (after ops1 (after ops0 V))) main_arg10 (by decide)).trans (keep2 (after ops1 (after ops0 V)) main_arg10 (by decide))).trans (keep1 (after ops0 V) main_arg10 (by decide))).trans (keep0 V main_arg10 (by decide))) ((((keep3 (after ops2 (after ops1 (after ops0 V))) main_arg11 (by decide)).trans (keep2 (after ops1 (after ops0 V)) main_arg11 (by decide))).trans (keep1 (after ops0 V) main_arg11 (by decide))).trans (keep0 V main_arg11 (by decide))) ((((keep3 (after ops2 (after ops1 (after ops0 V))) main_arg12 (by decide)).trans (keep2 (after ops1 (after ops0 V)) main_arg12 (by decide))).trans (keep1 (after ops0 V) main_arg12 (by decide))).trans (keep0 V main_arg12 (by decide)))
  exact h147

-- the reference ends at the layered function of its arguments, the arguments unchanged: the five stretches composed
set_option maxRecDepth 8192 in
theorem run' (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v147) = Cert.ReferenceIdeal.Spec.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v147).trans (by rw [after_ops]; exact result_eq (launchContents m c)),
      (h c main_arg0).trans (arg_keep (launchContents m c) main_arg0 (by decide)),
      (h c main_arg1).trans (arg_keep (launchContents m c) main_arg1 (by decide)),
      (h c main_arg2).trans (arg_keep (launchContents m c) main_arg2 (by decide)),
      (h c main_arg3).trans (arg_keep (launchContents m c) main_arg3 (by decide)),
      (h c main_arg4).trans (arg_keep (launchContents m c) main_arg4 (by decide)),
      (h c main_arg5).trans (arg_keep (launchContents m c) main_arg5 (by decide)),
      (h c main_arg6).trans (arg_keep (launchContents m c) main_arg6 (by decide)),
      (h c main_arg7).trans (arg_keep (launchContents m c) main_arg7 (by decide)),
      (h c main_arg8).trans (arg_keep (launchContents m c) main_arg8 (by decide)),
      (h c main_arg9).trans (arg_keep (launchContents m c) main_arg9 (by decide)),
      (h c main_arg10).trans (arg_keep (launchContents m c) main_arg10 (by decide)),
      (h c main_arg11).trans (arg_keep (launchContents m c) main_arg11 (by decide)),
      (h c main_arg12).trans (arg_keep (launchContents m c) main_arg12 (by decide))⟩)
    (run_seq scopedRefs_eq scopedSems_eq defs main (fun _ => ops) main_eq (fun _ => ops_sub) m ρ (fun _ => ops_fresh))

end Cert.ReferenceIdeal.HandRun

end
-- ==== Proof.lean ====
import proofs.«410316_j20426864460069_3_alg».proof.Defs
import proofs.«410316_j20426864460069_3_alg».proof.Proof.Gen.Pre_finite_inputs
import proofs.«410316_j20426864460069_3_alg».proof.Proof.RunAll
import proofs.«410316_j20426864460069_3_alg».proof.Proof.RunAllK
import proofs.«410316_j20426864460069_3_alg».proof.Proof.Bridge
import proofs.«410316_j20426864460069_3_alg».proof.Proof.RefRun
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Hand.run_value m ρ)
theorem frame_ki : Cert.frame_KernelIdeal := fun m ρ _ =>
  (θ_run Cert.KernelIdeal.defs _ _).mono (fun _ h c => (h c).2) (Cert.KernelIdeal.Hand.run_value m ρ)
theorem frame_ri : Cert.frame_ReferenceIdeal := fun m ρ _ =>
  (θ_run Cert.ReferenceIdeal.defs _ _).mono (fun _ h c => (h c).2) (Cert.ReferenceIdeal.HandRun.run' (F := Ideal) m ρ)

theorem algebraic : Cert.algebraic_KernelIdeal_ReferenceIdeal := by
  intro m ρ m' ρ' _ hagree
  refine ⟨_, (θ_run Cert.KernelIdeal.defs _ _).mono (fun r h c => ⟨(h c).1.trans (Cert.KernelIdeal.Hand.bridge m c), (h c).2⟩)
    (Cert.KernelIdeal.Hand.run_value (F := Ideal) m ρ), ?_⟩
  refine (θ_run Cert.ReferenceIdeal.defs _ _).mono (fun _ h c => ⟨(h c).1.trans ?_, (h c).2⟩)
    (Cert.ReferenceIdeal.HandRun.run' (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
